-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S_ : Shape := ⟨0, ![]⟩
abbrev S1x1250000 : Shape := ⟨2, ![1, 1250000]⟩
abbrev S1250000 : Shape := ⟨1, ![1250000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  slices_S2x1250000_S1x1250000_0_0 : S2x1250000.Slices ![0, 0] S1x1250000
  shapeCasts_S1x1250000_S1250000 : S1x1250000.ShapeCasts S1250000
  bcast_S_S1250000 : S_.BroadcastsInDim S1250000 (![] : Fin 0 → Fin S1250000.rank)
  reducesTo_S1250000_S_d0 : S1250000.ReducesTo [0] S_

variable [Facts]

def fn {F : FTy → Type} [FloatOps F] (main_arg0 : FVec F S100000x64 .f32) (main_arg1 : IVec S2x1250000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : IVec S1x1250000 32 := (extractStridedSlice S1x1250000 ![0, 0] · slices_S2x1250000_S1x1250000_0_0) main_arg1
  let main_v5 : IVec S1250000 32 := shapeCast S1250000 main_v4 shapeCasts_S1x1250000_S1250000
  let main_c_0 : IVec S_ 32 := constantI S_ 32 0#32
  let main_v6 : IVec S1250000 32 := broadcastInDim S1250000 ![] bcast_S_S1250000 main_c_0
  let main_v7 : IVec S1250000 1 := cmpi .sge main_v5 main_v6
  let main_v8 : IVec S1x1250000 32 := (extractStridedSlice S1x1250000 ![0, 0] · slices_S2x1250000_S1x1250000_0_0) main_arg1
  let main_v9 : IVec S1250000 32 := shapeCast S1250000 main_v8 shapeCasts_S1x1250000_S1250000
  let main_c_1 : IVec S_ 32 := constantI S_ 32 100000#32
  let main_v10 : IVec S1250000 32 := broadcastInDim S1250000 ![] bcast_S_S1250000 main_c_1
  let main_v11 : IVec S1250000 1 := cmpi .slt main_v9 main_v10
  let main_v12 : IVec S1250000 1 := andi main_v7 main_v11
  let main_c_2 : IVec S_ 1 := constantI S_ 1 1#1
  let main_v13 : IVec S_ 1 := (fun x v => Host.reduce IntOp.andi x v reducesTo_S1250000_S_d0 h_S_) main_v12 main_c_2
  let main_v14 : IVec S_ 1 := andi main_v3 main_v13
  main_v14
-- ==== Kernel.lean ====
abbrev S100000x64 : Shape := ⟨2, ![100000, 64]⟩
abbrev S2x1250000 : Shape := ⟨2, ![2, 1250000]⟩
abbrev S1x1250000 : Shape := ⟨2, ![1, 1250000]⟩
abbrev S1250000 : Shape := ⟨1, ![1250000]⟩
abbrev S_ : Shape := ⟨0, ![]⟩
abbrev S1328 : Shape := ⟨1, ![1328]⟩
abbrev S1251328 : Shape := ⟨1, ![1251328]⟩
abbrev S352x64 : Shape := ⟨2, ![352, 64]⟩
abbrev S100352x64 : Shape := ⟨2, ![100352, 64]⟩
abbrev S1251328x64 : Shape := ⟨2, ![1251328, 64]⟩
abbrev S2048 : Shape := ⟨1, ![2048]⟩
abbrev S2048x64 : Shape := ⟨2, ![2048, 64]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 20
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1x1250000, .i32⟩
  | .hbm, ⟨3, _⟩ => ⟨S1250000, .i32⟩
  | .hbm, ⟨4, _⟩ => ⟨S1x1250000, .i32⟩
  | .hbm, ⟨5, _⟩ => ⟨S1250000, .i32⟩
  | .hbm, ⟨6, _⟩ => ⟨S_, .i32⟩
  | .hbm, ⟨7, _⟩ => ⟨S1328, .i32⟩
  | .hbm, ⟨8, _⟩ => ⟨S1251328, .i32⟩
  | .hbm, ⟨9, _⟩ => ⟨S1251328, .i32⟩
  | .hbm, ⟨10, _⟩ => ⟨S100000x64, .bf16⟩
  | .hbm, ⟨11, _⟩ => ⟨S_, .bf16⟩
  | .hbm, ⟨12, _⟩ => ⟨S352x64, .bf16⟩
  | .hbm, ⟨13, _⟩ => ⟨S100352x64, .bf16⟩
  | .hbm, ⟨14, _⟩ => ⟨S1251328x64, .bf16⟩
  | .hbm, ⟨15, _⟩ => ⟨S100352x64, .f32⟩
  | .hbm, ⟨16, _⟩ => ⟨S100352x64, .bf16⟩
  | .hbm, ⟨17, _⟩ => ⟨S1251328x64, .bf16⟩
  | .hbm, ⟨18, _⟩ => ⟨S100352x64, .f32⟩
  | .hbm, ⟨19, _⟩ => ⟨S100000x64, .f32⟩
  | .local _ .vmem, ⟨0, _⟩ => ⟨S2048, .i32⟩
  | .local _ .vmem, ⟨1, _⟩ => ⟨S2048, .i32⟩
  | .local _ .vmem, ⟨2, _⟩ => ⟨S2048x64, .bf16⟩
  | .local _ .vmem, ⟨3, _⟩ => ⟨S2048x64, .bf16⟩
  | .local _ .vmem, ⟨4, _⟩ => ⟨S2048x64, .bf16⟩
  | .local _ .vmem, ⟨5, _⟩ => ⟨S2048x64, .bf16⟩
  | .local _ .vmem, ⟨6, _⟩ => ⟨S2048x64, .f32⟩
  | .local _ .vmem, ⟨7, _⟩ => ⟨S2048, .i32⟩
  | .local _ .vmem, ⟨8, _⟩ => ⟨S2048, .i32⟩
  | .local _ .vmem, ⟨9, _⟩ => ⟨S2048x64, .bf16⟩
  | .local _ .vmem, ⟨10, _⟩ => ⟨S2048x64, .bf16⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2048x64, .bf16⟩
  | .local _ .vmem, ⟨17, _⟩ => ⟨S2048x64, .bf16⟩
  | .local _ .vmem, ⟨18, _⟩ => ⟨S2048, .i32⟩
  | .local _ .vmem, ⟨19, _⟩ => ⟨S2048, .i32⟩
  | .local _ .vmem, ⟨20, _⟩ => ⟨S2048x64, .bf16⟩
  | .local _ .vmem, ⟨21, _⟩ => ⟨S2048x64, .bf16⟩
  | .local _ .vmem, ⟨22, _⟩ => ⟨S2048x64, .bf16⟩
  | .local _ .vmem, ⟨23, _⟩ => ⟨S2048x64, .bf16⟩
  | .local _ .vmem, ⟨24, _⟩ => ⟨S2048x64, .f32⟩
  | .local _ .vmem, ⟨25, _⟩ => ⟨S2048, .i32⟩
  | .local _ .vmem, ⟨26, _⟩ => ⟨S2048, .i32⟩
  | .local _ .vmem, ⟨27, _⟩ => ⟨S2048x64, .bf16⟩
  | .local _ .vmem, ⟨28, _⟩ => ⟨S2048x64, .bf16⟩
  | .local _ .vmem, ⟨29, _⟩ => ⟨S2048x64, .f32⟩
  | .local _ .vmem, ⟨30, _⟩ => ⟨S2048x64, .f32⟩
  | .local _ .vmem, ⟨31, _⟩ => ⟨S2048x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_scratch0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨2, ![611, 49], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![49, 611], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨2, ![611, 49], ![false, false]⟩

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  ![arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![49, 611], ![false, false]⟩

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  ![arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1328 : S_.BroadcastsInDim S1328 (![] : Fin 0 → Fin S1328.rank)
  concatenates_S1250000_S1328_S1251328_d0 : Shape.Concatenates [S1250000, S1328] S1251328 0
  bitsLt_bf16_f32 : FTy.bits .bf16 < FTy.bits .f32
  bcast_S_S352x64 : S_.BroadcastsInDim S352x64 (![] : Fin 0 → Fin S352x64.rank)
  concatenates_S100000x64_S352x64_S100352x64_d0 : Shape.Concatenates [S100000x64, S352x64] S100352x64 0
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048_S2048_0 : ∀ a, (![0] : Fin 1 → Nat) a + S2048.size a ≤ S2048.size a
  h_S2048 : 0 < S2048.numel
  shapeCasts_S2048_S2048 : S2048.ShapeCasts S2048
  iota_S1x2048_d1_w32 : S1x2048.Iotas .tc 32 [1]
  shapeCasts_S2048_S2048x1 : S2048.ShapeCasts S2048x1
  broadcasts_S2048x1_S2048x2048 : S2048x1.Broadcasts S2048x2048
  broadcasts_S1x2048_S2048x2048 : S1x2048.Broadcasts S2048x2048
  natLt_1_32 : 1 < 32
  packedbf16_S2048x64_S2048x64_0_0 : (Rect.unit (s := S2048x64) ![0, 0] S2048x64.size inb_S2048x64_S2048x64_0_0).PackedRows (EltTy.packing .bf16)
  iota_S2048x1_d0_w32 : S2048x1.Iotas .tc 32 [0]
  shapeCasts_S2048_S1x2048 : S2048.ShapeCasts S1x2048
  slices_S100352x64_S100000x64_0_0 : S100352x64.Slices ![0, 0] S100000x64
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S1251328.size a
  hwx0_0 : ∀ i : grid0.Coords, EltTy.bits .i32 = 32 ∨ (Rect.block (s := S1251328) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S100352x64.size a
  hwx0_1 : ∀ i : grid0.Coords, EltTy.bits .bf16 = 32 ∨ (Rect.block (s := S100352x64) S2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S1251328x64.size a
  hwx0_2 : ∀ i : grid0.Coords, EltTy.bits .bf16 = 32 ∨ (Rect.block (s := S1251328x64) S2048x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048.size a ≤ S1251328.size a
  hwx1_0 : ∀ i : grid1.Coords, EltTy.bits .i32 = 32 ∨ (Rect.block (s := S1251328) S2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S1251328x64.size a
  hwx1_1 : ∀ i : grid1.Coords, EltTy.bits .bf16 = 32 ∨ (Rect.block (s := S1251328x64) S2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S100352x64.size a
  hwx1_2 : ∀ i : grid1.Coords, EltTy.bits .f32 = 32 ∨ (Rect.block (s := S100352x64) S2048x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S100352x64.size a
  hwx2_0 : ∀ i : grid2.Coords, EltTy.bits .f32 = 32 ∨ (Rect.block (s := S100352x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S100352x64.size a
  hwx2_1 : ∀ i : grid2.Coords, EltTy.bits .bf16 = 32 ∨ (Rect.block (s := S100352x64) S2048x64.size (cc2_transform_1 i) (hinb2_1 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048.size a ≤ S1251328.size a
  hwx3_0 : ∀ i : grid3.Coords, EltTy.bits .i32 = 32 ∨ (Rect.block (s := S1251328) S2048.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S100352x64.size a
  hwx3_1 : ∀ i : grid3.Coords, EltTy.bits .bf16 = 32 ∨ (Rect.block (s := S100352x64) S2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S1251328x64.size a
  hwx3_2 : ∀ i : grid3.Coords, EltTy.bits .bf16 = 32 ∨ (Rect.block (s := S1251328x64) S2048x64.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048.size a ≤ S1251328.size a
  hwx4_0 : ∀ i : grid4.Coords, EltTy.bits .i32 = 32 ∨ (Rect.block (s := S1251328) S2048.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x64.size a ≤ S1251328x64.size a
  hwx4_1 : ∀ i : grid4.Coords, EltTy.bits .bf16 = 32 ∨ (Rect.block (s := S1251328x64) S2048x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x64.size a ≤ S100352x64.size a
  hwx4_2 : ∀ i : grid4.Coords, EltTy.bits .f32 = 32 ∨ (Rect.block (s := S100352x64) S2048x64.size (cc4_transform_2 i) (hinb4_2 i)).WholeWords (EltTy.packing .f32)

variable [Facts₀]

def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_v5) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v11) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2048x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v5) S2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S2048x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v6) S2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S2048x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v14) S2048x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩

abbrev nBuf : Space → Nat
  | .hbm => 35
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1x1250000, .i32⟩
  | .hbm, ⟨3, _⟩ => ⟨S1250000, .i32⟩
  | .hbm, ⟨4, _⟩ => ⟨S1x1250000, .i32⟩
  | .hbm, ⟨5, _⟩ => ⟨S1250000, .i32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S_, .f32⟩
  | .hbm, ⟨16, _⟩ => ⟨S100000x64, .f32⟩
  | .hbm, ⟨17, _⟩ => ⟨S1250000x1, .i32⟩
  | .hbm, ⟨18, _⟩ => ⟨S100000x64, .f32⟩
  | .hbm, ⟨19, _⟩ => ⟨S_, .f32⟩
  | .hbm, ⟨20, _⟩ => ⟨S100000x64, .f32⟩
  | .hbm, ⟨21, _⟩ => ⟨S100000x64, .f32⟩
  | .hbm, ⟨22, _⟩ => ⟨S_, .i32⟩
  | .hbm, ⟨23, _⟩ => ⟨S1250000, .i32⟩
  | .hbm, ⟨24, _⟩ => ⟨S1250000, .i1⟩
  | .hbm, ⟨25, _⟩ => ⟨S_, .i32⟩
  | .hbm, ⟨26, _⟩ => ⟨S1250000, .i32⟩
  | .hbm, ⟨27, _⟩ => ⟨S1250000, .i32⟩
  | .hbm, ⟨28, _⟩ => ⟨S1250000, .i32⟩
  | .hbm, ⟨29, _⟩ => ⟨S1250000x1, .i32⟩
  | .hbm, ⟨30, _⟩ => ⟨S1250000x64, .f32⟩
  | .hbm, ⟨31, _⟩ => ⟨S_, .f32⟩
  | .hbm, ⟨32, _⟩ => ⟨S100000x64, .f32⟩
  | .hbm, ⟨33, _⟩ => ⟨S1250000x1, .i32⟩
  | .hbm, ⟨34, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_cst : Ref sig .tc := ⟨.hbm, 19, rfl⟩
abbrev main_call0_v0 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.Kernel.GatherRun.lean ====
import proofs.«401808_j32040456028632_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev restart (i : grid0.Coords) : Prop :=
  (Scalar.cmpi .ne (Scalar.extui (Scalar.cmpi .eq (BitVec.ofNat 32 (i 1).val) 0#32)) 0#32) = 1#1

theorem restart_of_coord : ∀ n : Fin 49,
    ((Scalar.cmpi .ne (Scalar.extui (Scalar.cmpi .eq (BitVec.ofNat 32 n.val) 0#32)) 0#32) = 1#1) ↔ n.val = 0 := by
  decide +kernel

theorem coord_snd (t : Fin cfg0.N) : ((grid0.coords t) 1).val = t.val % 49 := by
  show t.val / grid0.stride 1 % grid0.bound 1 = t.val % 49
  rw [show grid0.stride 1 = 1 from by decide, Nat.div_one]; rfl

theorem restart_iff (t : Fin cfg0.N) : restart (grid0.coords t) ↔ t.val % 49 = 0 := by
  rw [← coord_snd t]; exact restart_of_coord ((grid0.coords t) 1)

/-- The running sum the body leaves: the tile product added to `xs`, or to the zero tile where the sum restarts. -/
def acc (i : grid0.Coords) (x0 : Vec F S2048 .i32) (x1 : Vec F S2048x64 .bf16) (xs : Vec F S2048x64 .f32) : Vec F S2048x64 .f32 :=
  k0_pay2 i x0 (if restart i then k0_pay1 else xs) x1

theorem hz1 : (![0] : Fin 1 → Nat) = fun _ => 0 := funext fun a => by fin_cases a; rfl
theorem hz2 : (![0, 0] : Fin 2 → Nat) = fun _ => 0 := funext fun a => by fin_cases a <;> rfl

/-- One run of the body over a running sum `xs`: the running sum ends at `acc`, the output tile at `acc` in the narrower format. -/
theorem run (c : Dev nD) (i : grid0.Coords) (arg2 : Memref sig .tc .vmem S2048 .i32) (harg2 : arg2.IsWhole) (arg3 : Memref sig .tc .vmem S2048x64 .bf16) (harg3 : arg3.IsWhole) (arg4 : Memref sig .tc .vmem S2048x64 .bf16) (harg4 : arg4.IsWhole) (arg5 : Memref sig .tc .vmem S2048x64 .f32) (harg5 : arg5.IsWhole)
    (x0 : Vec F S2048 .i32) (x1 : Vec F S2048x64 .bf16) (xs : Vec F S2048x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay3 (acc i x0 x1 xs)) ∗ owns (c : Thread nD τ) arg5 fullShare (acc i x0 x1 xs)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel acc
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  by_cases hc0 : restart i
  all_goals
    first | rw [if_pos hc0] | rw [if_neg hc0]
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr
      swap; · iexact H2
      ipureintro; sl_unfold_words
      rw [View.read_writes_eq_canon _ _ _ (View.cover_of_tiledL _ S2048x64.size (by sl_kernel_rfl))]
      simp only [View.canon_unit_zero (S := S2048x64) hz2, View.canon_cons_unit_zero (S := S2048x64) hz2, View.readCov_cons_toLoadRect,
        View.readCov_unit_zero (S := S2048x64) _ hz2, View.readAt_eq_ld, harg2.read_unread, harg3.read_unread, harg5.read_unread,
        View.ld_unit_zero (S := S2048x64) hz2, View.ld_unit_zero (S := S2048) hz1]
    iexists _; isplitr
    swap; · iexact HS
    ipureintro; sl_unfold_words
    rw [View.read_writes_eq_canon _ _ _ (View.cover_of_tiledL _ S2048x64.size (by sl_kernel_rfl))]
    simp only [View.canon_unit_zero (S := S2048x64) hz2, View.canon_cons_unit_zero (S := S2048x64) hz2, View.readCov_cons_toLoadRect,
      View.readCov_unit_zero (S := S2048x64) _ hz2, View.readAt_eq_ld, harg2.read_unread, harg3.read_unread, harg5.read_unread,
      View.ld_unit_zero (S := S2048x64) hz2, View.ld_unit_zero (S := S2048) hz1]

theorem acc_of_restart {i : grid0.Coords} (h : restart i) (x0 : Vec F S2048 .i32) (x1 : Vec F S2048x64 .bf16) (xs xs' : Vec F S2048x64 .f32) :
    acc i x0 x1 xs = acc i x0 x1 xs' := by
  unfold acc; rw [if_pos h, if_pos h]

end Cert.Kernel.Gather

end
-- ==== Proof.Kernel.MsgBody.lean ====
import proofs.«401808_j32040456028632_1_alg».proof.Proof.Kernel.GatherRun
import proofs.«401808_j32040456028632_1_alg».proof.Proof.Gen.Kernel.Launch

set_option maxRecDepth 16384

noncomputable section

namespace Cert.Kernel.Msg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Gather

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0 (t : Fin cfg0.N) : Memref sig .tc .vmem S2048 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x64 .bf16 := win0_2.stage (cfg0.slots t 2)
abbrev hs2 (t : Fin cfg0.N) : (ms2 t).IsWhole := hstage0_2 ((cfg0.slots t 2).cast nbuf0_2)
abbrev scM : Memref sig .tc .vmem S2048x64 .f32 := Memref.whole cc0_scratch0

abbrev bodyAt (t : Fin cfg0.N) : Prog (TpuEff nD τ sig (Elt F) Λ₀ .tc) PUnit :=
  cc0__gather_kernel (grid0.coords t) (ms0 t) (hs0 t) (ms1 t) (hs1 t) (ms2 t) (hs2 t) scM (Memref.isWhole_whole _)

abbrev others (c : Dev nD) : sProp 𝕄 :=
  Pipeline.scopedRestBut (Ix := Unit) (Name := ℕ) (U := UR sig nD τ) (Lvl := ℕ) (Val := Elt F) spec0 c [cc0_scratch0]

theorem rest_eq (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ others (F := F) c) := by
  rw [scopedRest0_split]; simp only [scM, owns_whole]; try rfl

/-- The running sum after position `n`: each point adds its tile product to what the point before left. -/
def sumAt (c : Dev nD) : (n : ℕ) → n < cfg0.N → Vec F S2048x64 .f32
  | 0, hn => acc (grid0.coords ⟨0, hn⟩) (iblk V c 0 ⟨0, hn⟩) (iblk V c 1 ⟨0, hn⟩) k0_pay1
  | n + 1, hn => acc (grid0.coords ⟨n + 1, hn⟩) (iblk V c 0 ⟨n + 1, hn⟩) (iblk V c 1 ⟨n + 1, hn⟩) (sumAt c n (Nat.lt_of_succ_lt hn))

/-- The body's sum at `t` over a scratch that holds the previous point's sum (anything at the first point, which restarts). -/
theorem sumAt_step (c : Dev nD) (t : Fin cfg0.N) (d : Vec F S2048x64 .f32)
    (hd : ∀ h : t.val ≠ 0, d = sumAt V c (t.val - 1) (Nat.lt_of_le_of_lt (Nat.sub_le _ _) t.isLt)) :
    acc (grid0.coords t) (iblk V c 0 t) (iblk V c 1 t) d = sumAt V c t.val t.isLt := by
  obtain ⟨n, hn⟩ := t
  cases n with
  | zero => exact acc_of_restart ((restart_iff ⟨0, hn⟩).mpr rfl) _ _ _ _
  | succ n => rw [hd (Nat.succ_ne_zero n)]; rfl

/-- Before position `n` the scratch holds what the point before left (anything at the entry). -/
def PhiS (c : Dev nD) (n : ℕ) (hn : n ≤ cfg0.N) : sProp 𝕄 :=
  iprop(iprop((∃ d, ⌜∀ h : n ≠ 0, d = sumAt V c (n - 1) (by omega)⌝ ∗ owns (c : Thread nD τ) scM fullShare d) ∗ others (F := F) c) ∗ (∃ r, prngReg c r))

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay3 (sumAt V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after_2 (c : Dev nD) (t : Fin cfg0.N) : (dat V c).after 2 t = k0_pay3 (sumAt V c t.val t.isLt) := by dsimp only [dat]

theorem before_0 (c : Dev nD) (t : Fin cfg0.N) (d) : (dat V c).before 0 t d = iblk V c 0 t :=
  ((dat V c).before_in_eq_fetched 0 rfl (fun _ => rfl) (fun _ _ _ => rfl) (fun _ => rfl) t d).trans rfl
theorem before_1 (c : Dev nD) (t : Fin cfg0.N) (d) : (dat V c).before 1 t d = iblk V c 1 t :=
  ((dat V c).before_in_eq_fetched 1 rfl (fun _ => rfl) (fun _ _ _ => rfl) (fun _ => rfl) t d).trans rfl

theorem body_obligation (c : Dev nD) : BodyObligation (dat (F := F) V c) (defs₀ (F := F)) Variants.none () Set.univ := fun t => by
  rw [bigSep_W0, bigSep_W0]
  simp only [before_0, before_1]
  rw [show (dat V c).owesAt () t.succ = (dat V c).owesAt () t.castSucc from rfl,
    show (dat V c).Φ t.succ = PhiS V c (t.val + 1) t.isLt from rfl,
    show (dat V c).Φ t.castSucc = PhiS V c t.val (Nat.le_of_lt t.isLt) from rfl, after_2,
    show (dat V c).after 0 t = iblk V c 0 t from rfl, show (dat V c).after 1 t = iblk V c 1 t from rfl]
  unfold PhiS
  iintro ⟨⟨⟨⟨%d, %hd, HS⟩, Hoth⟩, Hg⟩, Ho, ⟨%d0, H0⟩, ⟨%d1, H1⟩, ⟨%d2, H2⟩⟩
  iapply (run c (grid0.coords t) (ms0 t) (hs0 t) (ms1 t) (hs1 t) (ms2 t) (hs2 t) scM (Memref.isWhole_whole _) (iblk V c 0 t) (iblk V c 1 t) d Set.univ _)
  rw [sumAt_step V c t d hd]
  isplitl [H0]; · iexact H0
  isplitl [H1]; · iexact H1
  isplitl [H2]; · iexists _; iexact H2
  isplitl [HS]; · iexact HS
  iintro ⟨H0, H1, H2, HS⟩
  isplitl [HS Hoth Hg]
  · isplitl [HS Hoth]
    · isplitl [HS]
      · iexists _; isplitr
        swap; · iexact HS
        ipureintro; exact fun _ => rfl
      iexact Hoth
    iexact Hg
  isplitl [Ho]; · iexact Ho
  isplitl [H0]; · iexact H0
  isplitl [H1]; · iexact H1
  iexact H2

/-- The entry invariant from what the region's entry hands over; anything else `P` is dropped. -/
theorem hin_region (c : Dev nD) (P : sProp 𝕄) :
    iprop((∃ r, prngReg c r) ∗ P ∗ Pipeline.scopedRest (Ix := Unit) (Name := ℕ) (U := UR sig nD τ) (Lvl := ℕ) (Val := Elt F) spec0 c)
      ⊢ (dat V c).Φ 0 := by
  rw [show (dat V c).Φ 0 = PhiS V c 0 (Nat.zero_le _) from rfl, rest_eq]; unfold PhiS
  iintro ⟨Hp, -, ⟨%d, HS⟩, Hoth⟩
  isplitl [HS Hoth]
  · isplitl [HS]
    · iexists d; isplitr
      swap; · iexact HS
      ipureintro; exact fun h => absurd rfl h
    iexact Hoth
  iexact Hp

/-- After the last point the invariant gives the same back, the running sum forgotten. -/
theorem hout_region (c : Dev nD) :
    (dat V c).Φ (Fin.last cfg0.N)
      ⊢ iprop((∃ r, prngReg c r) ∗ (BI.emp : sProp 𝕄) ∗ Pipeline.scopedRest (Ix := Unit) (Name := ℕ) (U := UR sig nD τ) (Lvl := ℕ) (Val := Elt F) spec0 c) := by
  rw [rest_eq, show (dat V c).Φ (Fin.last cfg0.N) = PhiS V c (Fin.last cfg0.N).val (Nat.le_of_lt_succ (Fin.last cfg0.N).isLt) from rfl]
  unfold PhiS
  iintro ⟨⟨⟨%d, -, HS⟩, Hoth⟩, Hg⟩
  isplitl [Hg]; · iexact Hg
  isplitr; · iempintro
  isplitl [HS]; · iexists _; iexact HS
  iexact Hoth

end Cert.Kernel.Msg

end
-- ==== Proof.Kernel.ScatterRun.lean ====
import proofs.«401808_j32040456028632_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev restart (i : grid1.Coords) : Prop :=
  (Scalar.cmpi .ne (Scalar.extui (Scalar.cmpi .eq (BitVec.ofNat 32 (i 1).val) 0#32)) 0#32) = 1#1

theorem restart_of_coord : ∀ n : Fin 611,
    ((Scalar.cmpi .ne (Scalar.extui (Scalar.cmpi .eq (BitVec.ofNat 32 n.val) 0#32)) 0#32) = 1#1) ↔ n.val = 0 := by
  decide +kernel

theorem coord_snd (t : Fin cfg1.N) : ((grid1.coords t) 1).val = t.val % 611 := by
  show t.val / grid1.stride 1 % grid1.bound 1 = t.val % 611
  rw [show grid1.stride 1 = 1 from by decide, Nat.div_one]; rfl

theorem restart_iff (t : Fin cfg1.N) : restart (grid1.coords t) ↔ t.val % 611 = 0 := by
  rw [← coord_snd t]; exact restart_of_coord ((grid1.coords t) 1)

/-- The running sum the body leaves: the tile product added to `xs`, or to the zero tile where the sum restarts. -/
def acc (i : grid1.Coords) (x0 : Vec F S2048 .i32) (x1 : Vec F S2048x64 .bf16) (xs : Vec F S2048x64 .f32) : Vec F S2048x64 .f32 :=
  k1_pay2 i x0 (if restart i then k1_pay1 else xs) x1

theorem hz1 : (![0] : Fin 1 → Nat) = fun _ => 0 := funext fun a => by fin_cases a; rfl
theorem hz2 : (![0, 0] : Fin 2 → Nat) = fun _ => 0 := funext fun a => by fin_cases a <;> rfl

/-- One run of the body over a running sum `xs`: the running sum and the output tile both end at `acc`. -/
theorem run (c : Dev nD) (i : grid1.Coords) (arg2 : Memref sig .tc .vmem S2048 .i32) (harg2 : arg2.IsWhole) (arg3 : Memref sig .tc .vmem S2048x64 .bf16) (harg3 : arg3.IsWhole) (arg4 : Memref sig .tc .vmem S2048x64 .f32) (harg4 : arg4.IsWhole) (arg5 : Memref sig .tc .vmem S2048x64 .f32) (harg5 : arg5.IsWhole)
    (x0 : Vec F S2048 .i32) (x1 : Vec F S2048x64 .bf16) (xs : Vec F S2048x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (acc i x0 x1 xs) ∗ owns (c : Thread nD τ) arg5 fullShare (acc i x0 x1 xs)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel acc
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  by_cases hc0 : restart i
  all_goals
    first | rw [if_pos hc0] | rw [if_neg hc0]
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr
      swap; · iexact H2
      ipureintro; sl_unfold_words
      rw [View.read_writes_eq_canon _ _ _ (View.cover_of_tiledL _ S2048x64.size (by sl_kernel_rfl))]
      simp only [View.canon_unit_zero (S := S2048x64) hz2, View.canon_cons_unit_zero (S := S2048x64) hz2, View.readCov_cons_toLoadRect,
        View.readCov_unit_zero (S := S2048x64) _ hz2, View.readAt_eq_ld, harg2.read_unread, harg3.read_unread, harg5.read_unread,
        View.ld_unit_zero (S := S2048x64) hz2, View.ld_unit_zero (S := S2048) hz1]
    iexists _; isplitr
    swap; · iexact HS
    ipureintro; sl_unfold_words
    rw [View.read_writes_eq_canon _ _ _ (View.cover_of_tiledL _ S2048x64.size (by sl_kernel_rfl))]
    simp only [View.canon_unit_zero (S := S2048x64) hz2, View.canon_cons_unit_zero (S := S2048x64) hz2, View.readCov_cons_toLoadRect,
      View.readCov_unit_zero (S := S2048x64) _ hz2, View.readAt_eq_ld, harg2.read_unread, harg3.read_unread, harg5.read_unread,
      View.ld_unit_zero (S := S2048x64) hz2, View.ld_unit_zero (S := S2048) hz1]

theorem acc_of_restart {i : grid1.Coords} (h : restart i) (x0 : Vec F S2048 .i32) (x1 : Vec F S2048x64 .bf16) (xs xs' : Vec F S2048x64 .f32) :
    acc i x0 x1 xs = acc i x0 x1 xs' := by
  unfold acc; rw [if_pos h, if_pos h]

end Cert.Kernel.Scatter

end
-- ==== Proof.Kernel.AggBody.lean ====
import proofs.«401808_j32040456028632_1_alg».proof.Proof.Kernel.ScatterRun
import proofs.«401808_j32040456028632_1_alg».proof.Proof.Gen.Kernel.Launch

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Scatter

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms0 (t : Fin cfg1.N) : Memref sig .tc .vmem S2048 .i32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x64 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S2048x64 .f32 := win1_2.stage (cfg1.slots t 2)
abbrev hs2 (t : Fin cfg1.N) : (ms2 t).IsWhole := hstage1_2 ((cfg1.slots t 2).cast nbuf1_2)
abbrev scM : Memref sig .tc .vmem S2048x64 .f32 := Memref.whole cc1_scratch0

abbrev bodyAt (t : Fin cfg1.N) : Prog (TpuEff nD τ sig (Elt F) Λ₀ .tc) PUnit :=
  cc1__scatter_kernel (grid1.coords t) (ms0 t) (hs0 t) (ms1 t) (hs1 t) (ms2 t) (hs2 t) scM (Memref.isWhole_whole _)

abbrev others (c : Dev nD) : sProp 𝕄 :=
  Pipeline.scopedRestBut (Ix := Unit) (Name := ℕ) (U := UR sig nD τ) (Lvl := ℕ) (Val := Elt F) spec1 c [cc1_scratch0]

theorem rest_eq (c : Dev nD) :
    (Pipeline.scopedRest (Ix := Unit) (Name := ℕ) (U := UR sig nD τ) (Lvl := ℕ) (Val := Elt F) spec1 c : sProp 𝕄)
      = iprop((∃ d, owns (c : Thread nD τ) scM fullShare d) ∗ others (F := F) c) := by
  rw [scopedRest1_split]; simp only [scM, owns_whole]; try rfl

/-- The running sum after position `n`: each point adds its tile product to what the point before left. -/
def sumAt (c : Dev nD) : (n : ℕ) → n < cfg1.N → Vec F S2048x64 .f32
  | 0, hn => acc (grid1.coords ⟨0, hn⟩) (iblk V c 0 ⟨0, hn⟩) (iblk V c 1 ⟨0, hn⟩) k1_pay1
  | n + 1, hn => acc (grid1.coords ⟨n + 1, hn⟩) (iblk V c 0 ⟨n + 1, hn⟩) (iblk V c 1 ⟨n + 1, hn⟩) (sumAt c n (Nat.lt_of_succ_lt hn))

/-- The body's sum at `t` over a scratch that holds the previous point's sum (anything at the first point, which restarts). -/
theorem sumAt_step (c : Dev nD) (t : Fin cfg1.N) (d : Vec F S2048x64 .f32)
    (hd : ∀ h : t.val ≠ 0, d = sumAt V c (t.val - 1) (Nat.lt_of_le_of_lt (Nat.sub_le _ _) t.isLt)) :
    acc (grid1.coords t) (iblk V c 0 t) (iblk V c 1 t) d = sumAt V c t.val t.isLt := by
  obtain ⟨n, hn⟩ := t
  cases n with
  | zero => exact acc_of_restart ((restart_iff ⟨0, hn⟩).mpr rfl) _ _ _ _
  | succ n => rw [hd (Nat.succ_ne_zero n)]; rfl

/-- Before position `n` the scratch holds what the point before left (anything at the entry). -/
def PhiS (c : Dev nD) (n : ℕ) (hn : n ≤ cfg1.N) : sProp 𝕄 :=
  iprop(iprop((∃ d, ⌜∀ h : n ≠ 0, d = sumAt V c (n - 1) (by omega)⌝ ∗ owns (c : Thread nD τ) scM fullShare d) ∗ others (F := F) c) ∗ (∃ r, prngReg c r))

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => sumAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after_2 (c : Dev nD) (t : Fin cfg1.N) : (dat V c).after 2 t = sumAt V c t.val t.isLt := by dsimp only [dat]

theorem before_0 (c : Dev nD) (t : Fin cfg1.N) (d) : (dat V c).before 0 t d = iblk V c 0 t :=
  ((dat V c).before_in_eq_fetched 0 rfl (fun _ => rfl) (fun _ _ _ => rfl) (fun _ => rfl) t d).trans rfl
theorem before_1 (c : Dev nD) (t : Fin cfg1.N) (d) : (dat V c).before 1 t d = iblk V c 1 t :=
  ((dat V c).before_in_eq_fetched 1 rfl (fun _ => rfl) (fun _ _ _ => rfl) (fun _ => rfl) t d).trans rfl

theorem body_obligation (c : Dev nD) : BodyObligation (dat (F := F) V c) (defs₀ (F := F)) Variants.none () Set.univ := fun t => by
  rw [bigSep_W1, bigSep_W1]
  simp only [before_0, before_1]
  rw [show (dat V c).owesAt () t.succ = (dat V c).owesAt () t.castSucc from rfl,
    show (dat V c).Φ t.succ = PhiS V c (t.val + 1) t.isLt from rfl,
    show (dat V c).Φ t.castSucc = PhiS V c t.val (Nat.le_of_lt t.isLt) from rfl, after_2,
    show (dat V c).after 0 t = iblk V c 0 t from rfl, show (dat V c).after 1 t = iblk V c 1 t from rfl]
  unfold PhiS
  iintro ⟨⟨⟨⟨%d, %hd, HS⟩, Hoth⟩, Hg⟩, Ho, ⟨%d0, H0⟩, ⟨%d1, H1⟩, ⟨%d2, H2⟩⟩
  iapply (run c (grid1.coords t) (ms0 t) (hs0 t) (ms1 t) (hs1 t) (ms2 t) (hs2 t) scM (Memref.isWhole_whole _) (iblk V c 0 t) (iblk V c 1 t) d Set.univ _)
  rw [sumAt_step V c t d hd]
  isplitl [H0]; · iexact H0
  isplitl [H1]; · iexact H1
  isplitl [H2]; · iexists _; iexact H2
  isplitl [HS]; · iexact HS
  iintro ⟨H0, H1, H2, HS⟩
  isplitl [HS Hoth Hg]
  · isplitl [HS Hoth]
    · isplitl [HS]
      · iexists _; isplitr
        swap; · iexact HS
        ipureintro; exact fun _ => rfl
      iexact Hoth
    iexact Hg
  isplitl [Ho]; · iexact Ho
  isplitl [H0]; · iexact H0
  isplitl [H1]; · iexact H1
  iexact H2

/-- The entry invariant from what the region's entry hands over; anything else `P` is dropped. -/
theorem hin_region (c : Dev nD) (P : sProp 𝕄) :
    iprop((∃ r, prngReg c r) ∗ P ∗ Pipeline.scopedRest (Ix := Unit) (Name := ℕ) (U := UR sig nD τ) (Lvl := ℕ) (Val := Elt F) spec1 c)
      ⊢ (dat V c).Φ 0 := by
  rw [show (dat V c).Φ 0 = PhiS V c 0 (Nat.zero_le _) from rfl, rest_eq]; unfold PhiS
  iintro ⟨Hp, -, ⟨%d, HS⟩, Hoth⟩
  isplitl [HS Hoth]
  · isplitl [HS]
    · iexists d; isplitr
      swap; · iexact HS
      ipureintro; exact fun h => absurd rfl h
    iexact Hoth
  iexact Hp

/-- After the last point the invariant gives the same back, the running sum forgotten. -/
theorem hout_region (c : Dev nD) :
    (dat V c).Φ (Fin.last cfg1.N)
      ⊢ iprop((∃ r, prngReg c r) ∗ (BI.emp : sProp 𝕄) ∗ Pipeline.scopedRest (Ix := Unit) (Name := ℕ) (U := UR sig nD τ) (Lvl := ℕ) (Val := Elt F) spec1 c) := by
  rw [rest_eq, show (dat V c).Φ (Fin.last cfg1.N) = PhiS V c (Fin.last cfg1.N).val (Nat.le_of_lt_succ (Fin.last cfg1.N).isLt) from rfl]
  unfold PhiS
  iintro ⟨⟨⟨%d, -, HS⟩, Hoth⟩, Hg⟩
  isplitl [Hg]; · iexact Hg
  isplitr; · iempintro
  isplitl [HS]; · iexists _; iexact HS
  iexact Hoth

end Cert.Kernel.Agg

end
-- ==== Proof.Kernel.ReluBody.lean ====
import proofs.«401808_j32040456028632_1_alg».proof.Proof.Gen.Kernel.Launch
import proofs.«401808_j32040456028632_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Relu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_in_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg2.N) : Memref sig .tc .vmem S2048x64 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S2048x64 .bf16 := win2_1.stage (cfg2.slots t 1)
abbrev hs1 (t : Fin cfg2.N) : (ms1 t).IsWhole := hstage2_1 ((cfg2.slots t 1).cast nbuf2_1)
abbrev bodyAt (t : Fin cfg2.N) : Prog (TpuEff nD τ sig (Elt F) Λ₀ .tc) PUnit :=
  cc2__relu_cast_kernel (grid2.coords t) (ms0 t) (hs0 t) (ms1 t) (hs1 t)

abbrev tile : Rect S2048x64 := Rect.unit (s := S2048x64) ![0, 0] S2048x64.size inb_S2048x64_S2048x64_0_0

def out (x0 : Vec F S2048x64 .f32) : Vec F S2048x64 .bf16 :=
  View.canon [⟨tile, k2_pay1 (View.ld x0 tile)⟩]

theorem cover_out (p0 : Vec F S2048x64 .bf16) (y : S2048x64.Idx) :
    ∃ pc ∈ ([⟨tile, p0⟩] : List (View.Piece (Elt F) S2048x64 .bf16)), y ∈ pc.1.set :=
  View.cover_of_tiled [⟨tile, p0⟩] S2048x64.size (by rfl) y

set_option maxHeartbeats 1000000 in

theorem sound_kernel (c : Dev nD) (E : Set ℕ) (i : grid2.Coords) (arg1 : Memref sig .tc .vmem S2048x64 .f32) (harg1 : arg1.IsWhole) (arg2 : Memref sig .tc .vmem S2048x64 .bf16) (harg2 : arg2.IsWhole)
    (x0 : Vec F S2048x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc2__relu_cast_kernel i arg1 harg1 arg2 harg2) K := by
  simp only [cc2__relu_cast_kernel_eq_skeleton]; unfold cc2__relu_cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => out (iblk V c 0 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = out (iblk V c 0 t) := by dsimp only [dat]

theorem before_0 (c : Dev nD) (t : Fin cfg2.N) (d) : (dat V c).before 0 t d = iblk V c 0 t :=
  before_in_of V (dat V c) (A_eq V c 0) (after_0 V c) t d

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d)))

def bodyPost (c : Dev nD) (t : Fin cfg2.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t))

theorem sound_body (c : Dev nD) (t : Fin cfg2.N) :
    bodyPre V c t ⊢ wp frame (wpE (defs₀ (F := F)) Variants.none c none) Set.univ (bodyAt t) (fun _ => bodyPost V c t) := by
  unfold bodyPre bodyPost bodyAt
  simp only [before_0]
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩⟩
  iapply (sound_kernel c Set.univ _ _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dat (F := F) V c) (defs₀ (F := F)) Variants.none () Set.univ := fun t => by
  rw [bigSep_W2, bigSep_W2]
  exact sound_body V c t

theorem hin_region (c : Dev nD) (P : sProp 𝕄) :
    iprop((∃ r, prngReg c r) ∗ P ∗ Pipeline.scopedRest (Ix := Unit) (Name := ℕ) (U := UR sig nD τ) (Lvl := ℕ) (Val := Elt F) spec2 c)
      ⊢ (dat V c).Φ 0 := by
  rw [show (dat V c).Φ 0 = Pipeline.ΦA spec2 c from rfl]; unfold Pipeline.ΦA
  iintro ⟨Hp, -, Hr⟩
  isplitl [Hr]; · iexact Hr
  iexact Hp

theorem hout_region (c : Dev nD) :
    (dat V c).Φ (Fin.last cfg2.N)
      ⊢ iprop((∃ r, prngReg c r) ∗ (BI.emp : sProp 𝕄) ∗ Pipeline.scopedRest (Ix := Unit) (Name := ℕ) (U := UR sig nD τ) (Lvl := ℕ) (Val := Elt F) spec2 c) := by
  rw [show (dat V c).Φ (Fin.last cfg2.N) = Pipeline.ΦA spec2 c from rfl]; unfold Pipeline.ΦA
  iintro ⟨Hr, Hp⟩
  isplitl [Hp]; · iexact Hp
  isplitr; · iempintro
  iexact Hr

end Cert.Kernel.Relu

end
-- ==== Proof.Kernel.Msg2Body.lean ====
import proofs.«401808_j32040456028632_1_alg».proof.Proof.Kernel.GatherRun
import proofs.«401808_j32040456028632_1_alg».proof.Proof.Gen.Kernel.Launch

set_option maxRecDepth 16384

noncomputable section

namespace Cert.Kernel.Msg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Gather

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev ms0 (t : Fin cfg3.N) : Memref sig .tc .vmem S2048 .i32 := win3_0.stage (cfg3.slots t 0)
abbrev hs0 (t : Fin cfg3.N) : (ms0 t).IsWhole := hstage3_0 ((cfg3.slots t 0).cast nbuf3_0)
abbrev ms1 (t : Fin cfg3.N) : Memref sig .tc .vmem S2048x64 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S2048x64 .bf16 := win3_2.stage (cfg3.slots t 2)
abbrev hs2 (t : Fin cfg3.N) : (ms2 t).IsWhole := hstage3_2 ((cfg3.slots t 2).cast nbuf3_2)
abbrev scM : Memref sig .tc .vmem S2048x64 .f32 := Memref.whole cc3_scratch0

abbrev bodyAt (t : Fin cfg3.N) : Prog (TpuEff nD τ sig (Elt F) Λ₀ .tc) PUnit :=
  cc3__gather_kernel (grid3.coords t) (ms0 t) (hs0 t) (ms1 t) (hs1 t) (ms2 t) (hs2 t) scM (Memref.isWhole_whole _)

abbrev others (c : Dev nD) : sProp 𝕄 :=
  Pipeline.scopedRestBut (Ix := Unit) (Name := ℕ) (U := UR sig nD τ) (Lvl := ℕ) (Val := Elt F) spec3 c [cc3_scratch0]

theorem rest_eq (c : Dev nD) :
    (Pipeline.scopedRest (Ix := Unit) (Name := ℕ) (U := UR sig nD τ) (Lvl := ℕ) (Val := Elt F) spec3 c : sProp 𝕄)
      = iprop((∃ d, owns (c : Thread nD τ) scM fullShare d) ∗ others (F := F) c) := by
  rw [scopedRest3_split]; simp only [scM, owns_whole]; try rfl

/-- The running sum after position `n`: each point adds its tile product to what the point before left. -/
def sumAt (c : Dev nD) : (n : ℕ) → n < cfg3.N → Vec F S2048x64 .f32
  | 0, hn => acc (grid3.coords ⟨0, hn⟩) (iblk V c 0 ⟨0, hn⟩) (iblk V c 1 ⟨0, hn⟩) k0_pay1
  | n + 1, hn => acc (grid3.coords ⟨n + 1, hn⟩) (iblk V c 0 ⟨n + 1, hn⟩) (iblk V c 1 ⟨n + 1, hn⟩) (sumAt c n (Nat.lt_of_succ_lt hn))

/-- The body's sum at `t` over a scratch that holds the previous point's sum (anything at the first point, which restarts). -/
theorem sumAt_step (c : Dev nD) (t : Fin cfg3.N) (d : Vec F S2048x64 .f32)
    (hd : ∀ h : t.val ≠ 0, d = sumAt V c (t.val - 1) (Nat.lt_of_le_of_lt (Nat.sub_le _ _) t.isLt)) :
    acc (grid3.coords t) (iblk V c 0 t) (iblk V c 1 t) d = sumAt V c t.val t.isLt := by
  obtain ⟨n, hn⟩ := t
  cases n with
  | zero => exact acc_of_restart ((restart_iff ⟨0, hn⟩).mpr rfl) _ _ _ _
  | succ n => rw [hd (Nat.succ_ne_zero n)]; rfl

/-- Before position `n` the scratch holds what the point before left (anything at the entry). -/
def PhiS (c : Dev nD) (n : ℕ) (hn : n ≤ cfg3.N) : sProp 𝕄 :=
  iprop(iprop((∃ d, ⌜∀ h : n ≠ 0, d = sumAt V c (n - 1) (by omega)⌝ ∗ owns (c : Thread nD τ) scM fullShare d) ∗ others (F := F) c) ∗ (∃ r, prngReg c r))

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => k0_pay3 (sumAt V c t.val t.isLt)
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem after_2 (c : Dev nD) (t : Fin cfg3.N) : (dat V c).after 2 t = k0_pay3 (sumAt V c t.val t.isLt) := by dsimp only [dat]

theorem before_0 (c : Dev nD) (t : Fin cfg3.N) (d) : (dat V c).before 0 t d = iblk V c 0 t :=
  ((dat V c).before_in_eq_fetched 0 rfl (fun _ => rfl) (fun _ _ _ => rfl) (fun _ => rfl) t d).trans rfl
theorem before_1 (c : Dev nD) (t : Fin cfg3.N) (d) : (dat V c).before 1 t d = iblk V c 1 t :=
  ((dat V c).before_in_eq_fetched 1 rfl (fun _ => rfl) (fun _ _ _ => rfl) (fun _ => rfl) t d).trans rfl

theorem body_obligation (c : Dev nD) : BodyObligation (dat (F := F) V c) (defs₀ (F := F)) Variants.none () Set.univ := fun t => by
  rw [bigSep_W3, bigSep_W3]
  simp only [before_0, before_1]
  rw [show (dat V c).owesAt () t.succ = (dat V c).owesAt () t.castSucc from rfl,
    show (dat V c).Φ t.succ = PhiS V c (t.val + 1) t.isLt from rfl,
    show (dat V c).Φ t.castSucc = PhiS V c t.val (Nat.le_of_lt t.isLt) from rfl, after_2,
    show (dat V c).after 0 t = iblk V c 0 t from rfl, show (dat V c).after 1 t = iblk V c 1 t from rfl]
  unfold PhiS
  iintro ⟨⟨⟨⟨%d, %hd, HS⟩, Hoth⟩, Hg⟩, Ho, ⟨%d0, H0⟩, ⟨%d1, H1⟩, ⟨%d2, H2⟩⟩
  iapply (run c (grid3.coords t) (ms0 t) (hs0 t) (ms1 t) (hs1 t) (ms2 t) (hs2 t) scM (Memref.isWhole_whole _) (iblk V c 0 t) (iblk V c 1 t) d Set.univ _)
  rw [sumAt_step V c t d hd]
  isplitl [H0]; · iexact H0
  isplitl [H1]; · iexact H1
  isplitl [H2]; · iexists _; iexact H2
  isplitl [HS]; · iexact HS
  iintro ⟨H0, H1, H2, HS⟩
  isplitl [HS Hoth Hg]
  · isplitl [HS Hoth]
    · isplitl [HS]
      · iexists _; isplitr
        swap; · iexact HS
        ipureintro; exact fun _ => rfl
      iexact Hoth
    iexact Hg
  isplitl [Ho]; · iexact Ho
  isplitl [H0]; · iexact H0
  isplitl [H1]; · iexact H1
  iexact H2

/-- The entry invariant from what the region's entry hands over; anything else `P` is dropped. -/
theorem hin_region (c : Dev nD) (P : sProp 𝕄) :
    iprop((∃ r, prngReg c r) ∗ P ∗ Pipeline.scopedRest (Ix := Unit) (Name := ℕ) (U := UR sig nD τ) (Lvl := ℕ) (Val := Elt F) spec3 c)
      ⊢ (dat V c).Φ 0 := by
  rw [show (dat V c).Φ 0 = PhiS V c 0 (Nat.zero_le _) from rfl, rest_eq]; unfold PhiS
  iintro ⟨Hp, -, ⟨%d, HS⟩, Hoth⟩
  isplitl [HS Hoth]
  · isplitl [HS]
    · iexists d; isplitr
      swap; · iexact HS
      ipureintro; exact fun h => absurd rfl h
    iexact Hoth
  iexact Hp

/-- After the last point the invariant gives the same back, the running sum forgotten. -/
theorem hout_region (c : Dev nD) :
    (dat V c).Φ (Fin.last cfg3.N)
      ⊢ iprop((∃ r, prngReg c r) ∗ (BI.emp : sProp 𝕄) ∗ Pipeline.scopedRest (Ix := Unit) (Name := ℕ) (U := UR sig nD τ) (Lvl := ℕ) (Val := Elt F) spec3 c) := by
  rw [rest_eq, show (dat V c).Φ (Fin.last cfg3.N) = PhiS V c (Fin.last cfg3.N).val (Nat.le_of_lt_succ (Fin.last cfg3.N).isLt) from rfl]
  unfold PhiS
  iintro ⟨⟨⟨%d, -, HS⟩, Hoth⟩, Hg⟩
  isplitl [Hg]; · iexact Hg
  isplitr; · iempintro
  isplitl [HS]; · iexists _; iexact HS
  iexact Hoth

end Cert.Kernel.Msg2

end
-- ==== Proof.Kernel.Agg2Body.lean ====
import proofs.«401808_j32040456028632_1_alg».proof.Proof.Kernel.ScatterRun
import proofs.«401808_j32040456028632_1_alg».proof.Proof.Gen.Kernel.Launch

set_option maxRecDepth 16384

noncomputable section

namespace Cert.Kernel.Agg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Scatter

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev ms0 (t : Fin cfg4.N) : Memref sig .tc .vmem S2048 .i32 := win4_0.stage (cfg4.slots t 0)
abbrev hs0 (t : Fin cfg4.N) : (ms0 t).IsWhole := hstage4_0 ((cfg4.slots t 0).cast nbuf4_0)
abbrev ms1 (t : Fin cfg4.N) : Memref sig .tc .vmem S2048x64 .bf16 := win4_1.stage (cfg4.slots t 1)
abbrev hs1 (t : Fin cfg4.N) : (ms1 t).IsWhole := hstage4_1 ((cfg4.slots t 1).cast nbuf4_1)
abbrev ms2 (t : Fin cfg4.N) : Memref sig .tc .vmem S2048x64 .f32 := win4_2.stage (cfg4.slots t 2)
abbrev hs2 (t : Fin cfg4.N) : (ms2 t).IsWhole := hstage4_2 ((cfg4.slots t 2).cast nbuf4_2)
abbrev scM : Memref sig .tc .vmem S2048x64 .f32 := Memref.whole cc4_scratch0

abbrev bodyAt (t : Fin cfg4.N) : Prog (TpuEff nD τ sig (Elt F) Λ₀ .tc) PUnit :=
  cc4__scatter_kernel (grid4.coords t) (ms0 t) (hs0 t) (ms1 t) (hs1 t) (ms2 t) (hs2 t) scM (Memref.isWhole_whole _)

abbrev others (c : Dev nD) : sProp 𝕄 :=
  Pipeline.scopedRestBut (Ix := Unit) (Name := ℕ) (U := UR sig nD τ) (Lvl := ℕ) (Val := Elt F) spec4 c [cc4_scratch0]

theorem rest_eq (c : Dev nD) :
    (Pipeline.scopedRest (Ix := Unit) (Name := ℕ) (U := UR sig nD τ) (Lvl := ℕ) (Val := Elt F) spec4 c : sProp 𝕄)
      = iprop((∃ d, owns (c : Thread nD τ) scM fullShare d) ∗ others (F := F) c) := by
  rw [scopedRest4_split]; simp only [scM, owns_whole]; try rfl

/-- The running sum after position `n`: each point adds its tile product to what the point before left. -/
def sumAt (c : Dev nD) : (n : ℕ) → n < cfg4.N → Vec F S2048x64 .f32
  | 0, hn => acc (grid4.coords ⟨0, hn⟩) (iblk V c 0 ⟨0, hn⟩) (iblk V c 1 ⟨0, hn⟩) k1_pay1
  | n + 1, hn => acc (grid4.coords ⟨n + 1, hn⟩) (iblk V c 0 ⟨n + 1, hn⟩) (iblk V c 1 ⟨n + 1, hn⟩) (sumAt c n (Nat.lt_of_succ_lt hn))

/-- The body's sum at `t` over a scratch that holds the previous point's sum (anything at the first point, which restarts). -/
theorem sumAt_step (c : Dev nD) (t : Fin cfg4.N) (d : Vec F S2048x64 .f32)
    (hd : ∀ h : t.val ≠ 0, d = sumAt V c (t.val - 1) (Nat.lt_of_le_of_lt (Nat.sub_le _ _) t.isLt)) :
    acc (grid4.coords t) (iblk V c 0 t) (iblk V c 1 t) d = sumAt V c t.val t.isLt := by
  obtain ⟨n, hn⟩ := t
  cases n with
  | zero => exact acc_of_restart ((restart_iff ⟨0, hn⟩).mpr rfl) _ _ _ _
  | succ n => rw [hd (Nat.succ_ne_zero n)]; rfl

/-- Before position `n` the scratch holds what the point before left (anything at the entry). -/
def PhiS (c : Dev nD) (n : ℕ) (hn : n ≤ cfg4.N) : sProp 𝕄 :=
  iprop(iprop((∃ d, ⌜∀ h : n ≠ 0, d = sumAt V c (n - 1) (by omega)⌝ ∗ owns (c : Thread nD τ) scM fullShare d) ∗ others (F := F) c) ∗ (∃ r, prngReg c r))

def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => sumAt V c t.val t.isLt
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]

theorem after_2 (c : Dev nD) (t : Fin cfg4.N) : (dat V c).after 2 t = sumAt V c t.val t.isLt := by dsimp only [dat]

theorem before_0 (c : Dev nD) (t : Fin cfg4.N) (d) : (dat V c).before 0 t d = iblk V c 0 t :=
  ((dat V c).before_in_eq_fetched 0 rfl (fun _ => rfl) (fun _ _ _ => rfl) (fun _ => rfl) t d).trans rfl
theorem before_1 (c : Dev nD) (t : Fin cfg4.N) (d) : (dat V c).before 1 t d = iblk V c 1 t :=
  ((dat V c).before_in_eq_fetched 1 rfl (fun _ => rfl) (fun _ _ _ => rfl) (fun _ => rfl) t d).trans rfl

theorem body_obligation (c : Dev nD) : BodyObligation (dat (F := F) V c) (defs₀ (F := F)) Variants.none () Set.univ := fun t => by
  rw [bigSep_W4, bigSep_W4]
  simp only [before_0, before_1]
  rw [show (dat V c).owesAt () t.succ = (dat V c).owesAt () t.castSucc from rfl,
    show (dat V c).Φ t.succ = PhiS V c (t.val + 1) t.isLt from rfl,
    show (dat V c).Φ t.castSucc = PhiS V c t.val (Nat.le_of_lt t.isLt) from rfl, after_2,
    show (dat V c).after 0 t = iblk V c 0 t from rfl, show (dat V c).after 1 t = iblk V c 1 t from rfl]
  unfold PhiS
  iintro ⟨⟨⟨⟨%d, %hd, HS⟩, Hoth⟩, Hg⟩, Ho, ⟨%d0, H0⟩, ⟨%d1, H1⟩, ⟨%d2, H2⟩⟩
  iapply (run c (grid4.coords t) (ms0 t) (hs0 t) (ms1 t) (hs1 t) (ms2 t) (hs2 t) scM (Memref.isWhole_whole _) (iblk V c 0 t) (iblk V c 1 t) d Set.univ _)
  rw [sumAt_step V c t d hd]
  isplitl [H0]; · iexact H0
  isplitl [H1]; · iexact H1
  isplitl [H2]; · iexists _; iexact H2
  isplitl [HS]; · iexact HS
  iintro ⟨H0, H1, H2, HS⟩
  isplitl [HS Hoth Hg]
  · isplitl [HS Hoth]
    · isplitl [HS]
      · iexists _; isplitr
        swap; · iexact HS
        ipureintro; exact fun _ => rfl
      iexact Hoth
    iexact Hg
  isplitl [Ho]; · iexact Ho
  isplitl [H0]; · iexact H0
  isplitl [H1]; · iexact H1
  iexact H2

/-- The entry invariant from what the region's entry hands over; anything else `P` is dropped. -/
theorem hin_region (c : Dev nD) (P : sProp 𝕄) :
    iprop((∃ r, prngReg c r) ∗ P ∗ Pipeline.scopedRest (Ix := Unit) (Name := ℕ) (U := UR sig nD τ) (Lvl := ℕ) (Val := Elt F) spec4 c)
      ⊢ (dat V c).Φ 0 := by
  rw [show (dat V c).Φ 0 = PhiS V c 0 (Nat.zero_le _) from rfl, rest_eq]; unfold PhiS
  iintro ⟨Hp, -, ⟨%d, HS⟩, Hoth⟩
  isplitl [HS Hoth]
  · isplitl [HS]
    · iexists d; isplitr
      swap; · iexact HS
      ipureintro; exact fun h => absurd rfl h
    iexact Hoth
  iexact Hp

/-- After the last point the invariant gives the same back, the running sum forgotten. -/
theorem hout_region (c : Dev nD) :
    (dat V c).Φ (Fin.last cfg4.N)
      ⊢ iprop((∃ r, prngReg c r) ∗ (BI.emp : sProp 𝕄) ∗ Pipeline.scopedRest (Ix := Unit) (Name := ℕ) (U := UR sig nD τ) (Lvl := ℕ) (Val := Elt F) spec4 c) := by
  rw [rest_eq, show (dat V c).Φ (Fin.last cfg4.N) = PhiS V c (Fin.last cfg4.N).val (Nat.le_of_lt_succ (Fin.last cfg4.N).isLt) from rfl]
  unfold PhiS
  iintro ⟨⟨⟨%d, -, HS⟩, Hoth⟩, Hg⟩
  isplitl [Hg]; · iexact Hg
  isplitr; · iempintro
  isplitl [HS]; · iexists _; iexact HS
  iexact Hoth

end Cert.Kernel.Agg2

end
-- ==== Proof.Kernel.Whole.lean ====
import proofs.«401808_j32040456028632_1_alg».proof.Proof.Kernel.MsgBody
import proofs.«401808_j32040456028632_1_alg».proof.Proof.Kernel.AggBody
import proofs.«401808_j32040456028632_1_alg».proof.Proof.Kernel.ReluBody
import proofs.«401808_j32040456028632_1_alg».proof.Proof.Kernel.Msg2Body
import proofs.«401808_j32040456028632_1_alg».proof.Proof.Kernel.Agg2Body
import proofs.«401808_j32040456028632_1_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev M0 : Dev nD → Valuation τ sig (Elt F) := fun c b => (s₀ m ρ).mem ((c : Dev nD), b)

abbrev M1 : Dev nD → Valuation τ sig (Elt F) := fun c => StableHlo.after hostOps0 (M0 m ρ c)
abbrev T1 : (c : Dev nD) → (b : Ref sig .tc) → Buf (Elt F) ((c : Thread nD τ).loc b) := fun c b => M1 m ρ c b

def M2 (c : Dev nD) : Valuation τ sig (Elt F) :=
  Pipeline.withArrays spec0 c (M1 m ρ c) fun w => (Msg.dat (T1 m ρ) c).arrAt w cfg0.N
theorem M2_arr (c : Dev nD) (w : Fin cfg0.W) :
    M2 m ρ c (Proc.devRef .tc (Pipeline.arrRef spec0 w)) = (Msg.dat (T1 m ρ) c).arrAt w cfg0.N := by
  unfold M2; exact Pipeline.withArrays_arr spec0 launch0.win.arr_inj c _ _ w
theorem M2_of_ne (c : Dev nD) (b : Ref sig .tc) (hb : ∀ w, Pipeline.arrRef spec0 w ≠ b) :
    M2 m ρ c (Proc.devRef .tc b) = M1 m ρ c (Proc.devRef .tc b) := by
  unfold M2; exact Pipeline.withArrays_of_ne spec0 c _ _ b hb

abbrev T2 : (c : Dev nD) → (b : Ref sig .tc) → Buf (Elt F) ((c : Thread nD τ).loc b) := fun c b => M2 m ρ c b
theorem hF0 (c : Dev nD) (w : Fin cfg0.W) : (Msg.dat (T1 m ρ) c).arrAt w cfg0.N = T2 m ρ c (Pipeline.arrRef spec0 w) :=
  (M2_arr m ρ c w).symm
theorem hrest0 (c : Dev nD) : ∀ b, b ∉ Finset.univ.image (Pipeline.arrRef spec0) → T2 m ρ c b = T1 m ρ c b :=
  fun b hb => M2_of_ne m ρ c b fun w e => hb (Finset.mem_image.mpr ⟨w, Finset.mem_univ _, e⟩)

def M3 (c : Dev nD) : Valuation τ sig (Elt F) :=
  Pipeline.withArrays spec1 c (M2 m ρ c) fun w => (Agg.dat (T2 m ρ) c).arrAt w cfg1.N
theorem M3_arr (c : Dev nD) (w : Fin cfg1.W) :
    M3 m ρ c (Proc.devRef .tc (Pipeline.arrRef spec1 w)) = (Agg.dat (T2 m ρ) c).arrAt w cfg1.N := by
  unfold M3; exact Pipeline.withArrays_arr spec1 launch1.win.arr_inj c _ _ w
theorem M3_of_ne (c : Dev nD) (b : Ref sig .tc) (hb : ∀ w, Pipeline.arrRef spec1 w ≠ b) :
    M3 m ρ c (Proc.devRef .tc b) = M2 m ρ c (Proc.devRef .tc b) := by
  unfold M3; exact Pipeline.withArrays_of_ne spec1 c _ _ b hb

abbrev T3 : (c : Dev nD) → (b : Ref sig .tc) → Buf (Elt F) ((c : Thread nD τ).loc b) := fun c b => M3 m ρ c b
theorem hF1 (c : Dev nD) (w : Fin cfg1.W) : (Agg.dat (T2 m ρ) c).arrAt w cfg1.N = T3 m ρ c (Pipeline.arrRef spec1 w) :=
  (M3_arr m ρ c w).symm
theorem hrest1 (c : Dev nD) : ∀ b, b ∉ Finset.univ.image (Pipeline.arrRef spec1) → T3 m ρ c b = T2 m ρ c b :=
  fun b hb => M3_of_ne m ρ c b fun w e => hb (Finset.mem_image.mpr ⟨w, Finset.mem_univ _, e⟩)

def M4 (c : Dev nD) : Valuation τ sig (Elt F) :=
  Pipeline.withArrays spec2 c (M3 m ρ c) fun w => (Relu.dat (T3 m ρ) c).arrAt w cfg2.N
theorem M4_arr (c : Dev nD) (w : Fin cfg2.W) :
    M4 m ρ c (Proc.devRef .tc (Pipeline.arrRef spec2 w)) = (Relu.dat (T3 m ρ) c).arrAt w cfg2.N := by
  unfold M4; exact Pipeline.withArrays_arr spec2 launch2.win.arr_inj c _ _ w
theorem M4_of_ne (c : Dev nD) (b : Ref sig .tc) (hb : ∀ w, Pipeline.arrRef spec2 w ≠ b) :
    M4 m ρ c (Proc.devRef .tc b) = M3 m ρ c (Proc.devRef .tc b) := by
  unfold M4; exact Pipeline.withArrays_of_ne spec2 c _ _ b hb

abbrev T4 : (c : Dev nD) → (b : Ref sig .tc) → Buf (Elt F) ((c : Thread nD τ).loc b) := fun c b => M4 m ρ c b
theorem hF2 (c : Dev nD) (w : Fin cfg2.W) : (Relu.dat (T3 m ρ) c).arrAt w cfg2.N = T4 m ρ c (Pipeline.arrRef spec2 w) :=
  (M4_arr m ρ c w).symm
theorem hrest2 (c : Dev nD) : ∀ b, b ∉ Finset.univ.image (Pipeline.arrRef spec2) → T4 m ρ c b = T3 m ρ c b :=
  fun b hb => M4_of_ne m ρ c b fun w e => hb (Finset.mem_image.mpr ⟨w, Finset.mem_univ _, e⟩)

def M5 (c : Dev nD) : Valuation τ sig (Elt F) :=
  Pipeline.withArrays spec3 c (M4 m ρ c) fun w => (Msg2.dat (T4 m ρ) c).arrAt w cfg3.N
theorem M5_arr (c : Dev nD) (w : Fin cfg3.W) :
    M5 m ρ c (Proc.devRef .tc (Pipeline.arrRef spec3 w)) = (Msg2.dat (T4 m ρ) c).arrAt w cfg3.N := by
  unfold M5; exact Pipeline.withArrays_arr spec3 launch3.win.arr_inj c _ _ w
theorem M5_of_ne (c : Dev nD) (b : Ref sig .tc) (hb : ∀ w, Pipeline.arrRef spec3 w ≠ b) :
    M5 m ρ c (Proc.devRef .tc b) = M4 m ρ c (Proc.devRef .tc b) := by
  unfold M5; exact Pipeline.withArrays_of_ne spec3 c _ _ b hb

abbrev T5 : (c : Dev nD) → (b : Ref sig .tc) → Buf (Elt F) ((c : Thread nD τ).loc b) := fun c b => M5 m ρ c b
theorem hF3 (c : Dev nD) (w : Fin cfg3.W) : (Msg2.dat (T4 m ρ) c).arrAt w cfg3.N = T5 m ρ c (Pipeline.arrRef spec3 w) :=
  (M5_arr m ρ c w).symm
theorem hrest3 (c : Dev nD) : ∀ b, b ∉ Finset.univ.image (Pipeline.arrRef spec3) → T5 m ρ c b = T4 m ρ c b :=
  fun b hb => M5_of_ne m ρ c b fun w e => hb (Finset.mem_image.mpr ⟨w, Finset.mem_univ _, e⟩)

def M6 (c : Dev nD) : Valuation τ sig (Elt F) :=
  Pipeline.withArrays spec4 c (M5 m ρ c) fun w => (Agg2.dat (T5 m ρ) c).arrAt w cfg4.N
theorem M6_arr (c : Dev nD) (w : Fin cfg4.W) :
    M6 m ρ c (Proc.devRef .tc (Pipeline.arrRef spec4 w)) = (Agg2.dat (T5 m ρ) c).arrAt w cfg4.N := by
  unfold M6; exact Pipeline.withArrays_arr spec4 launch4.win.arr_inj c _ _ w
theorem M6_of_ne (c : Dev nD) (b : Ref sig .tc) (hb : ∀ w, Pipeline.arrRef spec4 w ≠ b) :
    M6 m ρ c (Proc.devRef .tc b) = M5 m ρ c (Proc.devRef .tc b) := by
  unfold M6; exact Pipeline.withArrays_of_ne spec4 c _ _ b hb

abbrev T6 : (c : Dev nD) → (b : Ref sig .tc) → Buf (Elt F) ((c : Thread nD τ).loc b) := fun c b => M6 m ρ c b
theorem hF4 (c : Dev nD) (w : Fin cfg4.W) : (Agg2.dat (T5 m ρ) c).arrAt w cfg4.N = T6 m ρ c (Pipeline.arrRef spec4 w) :=
  (M6_arr m ρ c w).symm
theorem hrest4 (c : Dev nD) : ∀ b, b ∉ Finset.univ.image (Pipeline.arrRef spec4) → T6 m ρ c b = T5 m ρ c b :=
  fun b hb => M6_of_ne m ρ c b fun w e => hb (Finset.mem_image.mpr ⟨w, Finset.mem_univ _, e⟩)

abbrev M7 : Dev nD → Valuation τ sig (Elt F) := fun c => StableHlo.after hostOps5 (M6 m ρ c)

theorem M7_main_arg0 (c : Dev nD) : M7 m ρ c (Proc.devRef .tc main_arg0) = m ((c : Thread nD τ).loc main_arg0) :=
  calc M7 m ρ c (Proc.devRef .tc main_arg0)
    _ = M6 m ρ c (Proc.devRef .tc main_arg0) := StableHlo.after_of_writes_sub hostOps5 _ hostOps5_writes (show main_arg0 ∉ hostOps5_W by decide)
    _ = M5 m ρ c (Proc.devRef .tc main_arg0) := M6_of_ne m ρ c main_arg0 (by decide)
    _ = M4 m ρ c (Proc.devRef .tc main_arg0) := M5_of_ne m ρ c main_arg0 (by decide)
    _ = M3 m ρ c (Proc.devRef .tc main_arg0) := M4_of_ne m ρ c main_arg0 (by decide)
    _ = M2 m ρ c (Proc.devRef .tc main_arg0) := M3_of_ne m ρ c main_arg0 (by decide)
    _ = M1 m ρ c (Proc.devRef .tc main_arg0) := M2_of_ne m ρ c main_arg0 (by decide)
    _ = M0 m ρ c (Proc.devRef .tc main_arg0) := StableHlo.after_of_writes_sub hostOps0 _ hostOps0_writes (show main_arg0 ∉ hostOps0_W by decide)
    _ = m ((c : Thread nD τ).loc main_arg0) := rfl

theorem M7_main_arg1 (c : Dev nD) : M7 m ρ c (Proc.devRef .tc main_arg1) = m ((c : Thread nD τ).loc main_arg1) :=
  calc M7 m ρ c (Proc.devRef .tc main_arg1)
    _ = M6 m ρ c (Proc.devRef .tc main_arg1) := StableHlo.after_of_writes_sub hostOps5 _ hostOps5_writes (show main_arg1 ∉ hostOps5_W by decide)
    _ = M5 m ρ c (Proc.devRef .tc main_arg1) := M6_of_ne m ρ c main_arg1 (by decide)
    _ = M4 m ρ c (Proc.devRef .tc main_arg1) := M5_of_ne m ρ c main_arg1 (by decide)
    _ = M3 m ρ c (Proc.devRef .tc main_arg1) := M4_of_ne m ρ c main_arg1 (by decide)
    _ = M2 m ρ c (Proc.devRef .tc main_arg1) := M3_of_ne m ρ c main_arg1 (by decide)
    _ = M1 m ρ c (Proc.devRef .tc main_arg1) := M2_of_ne m ρ c main_arg1 (by decide)
    _ = M0 m ρ c (Proc.devRef .tc main_arg1) := StableHlo.after_of_writes_sub hostOps0 _ hostOps0_writes (show main_arg1 ∉ hostOps0_W by decide)
    _ = m ((c : Thread nD τ).loc main_arg1) := rfl

def pdats : (p : Fin 5) → (c : Dev nD) → Dat τ (Elt F) Unit ℕ (UR sig nD τ) ℕ (Pipeline.pin (pcfgs (F := F)) adm p) c
  | ⟨0, _⟩ => fun c => Msg.dat (T1 m ρ) c
  | ⟨1, _⟩ => fun c => Agg.dat (T2 m ρ) c
  | ⟨2, _⟩ => fun c => Relu.dat (T3 m ρ) c
  | ⟨3, _⟩ => fun c => Msg2.dat (T4 m ρ) c
  | ⟨4, _⟩ => fun c => Agg2.dat (T5 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Msg.body_obligation (T1 m ρ) c).loose
  hwaits := Pipeline.hwaits_of_owed_zero _ _ _ _ L lv 0 fun _ _ => rfl
  pre c := iprop(StableHlo.held (c : Thread nD τ) (Pipeline.ucRefs τ sig) (M1 m ρ c) ∗ R c)
  post c := iprop(StableHlo.held (c : Thread nD τ) (Pipeline.ucRefs τ sig) (M2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Msg.hin_region (T1 m ρ) c _
  hout c := by
    rw [Pipeline.ownSems0_none]
    exact Msg.hout_region (T1 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (T1 m ρ c) (T2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Agg.body_obligation (T2 m ρ) c).loose
  hwaits := Pipeline.hwaits_of_owed_zero _ _ _ _ L lv 1 fun _ _ => rfl
  pre c := iprop(StableHlo.held (c : Thread nD τ) (Pipeline.ucRefs τ sig) (M2 m ρ c) ∗ R c)
  post c := iprop(StableHlo.held (c : Thread nD τ) (Pipeline.ucRefs τ sig) (M3 m ρ c) ∗ R c)
  X c := iprop(∃ r, prngReg c r)
  Y c := iprop(∃ r, prngReg c r)
  Z c := Pipeline.unscopedRest (Ix := Unit) (Name := ℕ) (U := UR sig nD τ) (Lvl := ℕ) spec1 c (T2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (T2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Agg.hin_region (T2 m ρ) c _
  hout c := by
    rw [Pipeline.ownSems0_none]
    exact Agg.hout_region (T2 m ρ) c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (T2 m ρ c) (T3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Relu.body_obligation (T3 m ρ) c).loose
  hwaits := Pipeline.hwaits_of_owed_zero _ _ _ _ L lv 2 fun _ _ => rfl
  pre c := iprop(StableHlo.held (c : Thread nD τ) (Pipeline.ucRefs τ sig) (M3 m ρ c) ∗ R c)
  post c := iprop(StableHlo.held (c : Thread nD τ) (Pipeline.ucRefs τ sig) (M4 m ρ c) ∗ R c)
  X c := iprop(∃ r, prngReg c r)
  Y c := iprop(∃ r, prngReg c r)
  Z c := Pipeline.unscopedRest (Ix := Unit) (Name := ℕ) (U := UR sig nD τ) (Lvl := ℕ) spec2 c (T3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Relu.hin_region (T3 m ρ) c _
  hout c := by
    rw [Pipeline.ownSems0_none]
    exact Relu.hout_region (T3 m ρ) c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (T3 m ρ c) (T4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Msg2.body_obligation (T4 m ρ) c).loose
  hwaits := Pipeline.hwaits_of_owed_zero _ _ _ _ L lv 3 fun _ _ => rfl
  pre c := iprop(StableHlo.held (c : Thread nD τ) (Pipeline.ucRefs τ sig) (M4 m ρ c) ∗ R c)
  post c := iprop(StableHlo.held (c : Thread nD τ) (Pipeline.ucRefs τ sig) (M5 m ρ c) ∗ R c)
  X c := iprop(∃ r, prngReg c r)
  Y c := iprop(∃ r, prngReg c r)
  Z c := Pipeline.unscopedRest (Ix := Unit) (Name := ℕ) (U := UR sig nD τ) (Lvl := ℕ) spec3 c (T4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (T4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Msg2.hin_region (T4 m ρ) c _
  hout c := by
    rw [Pipeline.ownSems0_none]
    exact Msg2.hout_region (T4 m ρ) c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (T4 m ρ c) (T5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Agg2.body_obligation (T5 m ρ) c).loose
  hwaits := Pipeline.hwaits_of_owed_zero _ _ _ _ L lv 4 fun _ _ => rfl
  pre c := iprop(StableHlo.held (c : Thread nD τ) (Pipeline.ucRefs τ sig) (M5 m ρ c) ∗ R c)
  post c := iprop(StableHlo.held (c : Thread nD τ) (Pipeline.ucRefs τ sig) (M6 m ρ c) ∗ R c)
  X c := iprop(∃ r, prngReg c r)
  Y c := iprop(∃ r, prngReg c r)
  Z c := Pipeline.unscopedRest (Ix := Unit) (Name := ℕ) (U := UR sig nD τ) (Lvl := ℕ) spec4 c (T5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Agg2.hin_region (T5 m ρ) c _
  hout c := by
    rw [Pipeline.ownSems0_none]
    exact Agg2.hout_region (T5 m ρ) c
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (T5 m ρ c) (T6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (M0 m ρ)),
    .region (reg0 m ρ), .region (reg1 m ρ), .region (reg2 m ρ), .region (reg3 m ρ), .region (reg4 m ρ),
    .host (hseg hostOps5 hostOps5_sub hostOps5_fresh (M6 m ρ)) ]

theorem main_run (c : Dev nD) : main (F := F) c = Pipeline.Seg.run (segs m ρ) := (main_chain c).trans (by chain_rfl)

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = M7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m ρ c) ∗ R c))
    (Tₙ := fun c => iprop(StableHlo.held (c : Thread nD τ) (Pipeline.ucRefs τ sig) (M7 m ρ c) ∗ ∃ r, prngReg c r))
    (hch := ⟨fun _ => .rfl, fun _ => .rfl, fun _ => .rfl, fun _ => .rfl, fun _ => .rfl, fun _ => .rfl, fun _ => .rfl,
      fun c => (show iprop(StableHlo.held (c : Thread nD τ) (Pipeline.ucRefs τ sig) (M7 m ρ c) ∗ R c)
          ⊢ (iprop(iprop(StableHlo.held (c : Thread nD τ) (Pipeline.ucRefs τ sig) (M7 m ρ c) ∗ ∃ r, prngReg c r)
              ∗ ∃ W, owes (c : Thread nD τ) (0 : CellTallies nD τ sig Unit) W) : sProp 𝕄) from by
        iintro ⟨Hh, ⟨Hp, HO⟩⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M7 m ρ c b)
    (hfin := fun c s' => by
      iintro ⟨⟨Hh, -⟩, HSI⟩
      unfold StableHlo.held
      imodintro
      iapply (pointsTo_read_all (Pipeline.ucRefs τ sig) (fun b => (((c : Thread nD τ)).1, b)) (M7 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (M7_main_arg0 m ρ c),
     (h c _ (mem_uc main_arg1 (by decide))).trans (M7_main_arg1 m ρ c)⟩) (run m ρ)

end Cert.Kernel.Whole

end
-- ==== Proof.KernelIdeal.GatherRun.lean ====
import proofs.«401808_j32040456028632_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev restart (i : grid0.Coords) : Prop :=
  (Scalar.cmpi .ne (Scalar.extui (Scalar.cmpi .eq (BitVec.ofNat 32 (i 1).val) 0#32)) 0#32) = 1#1

theorem restart_of_coord : ∀ n : Fin 49,
    ((Scalar.cmpi .ne (Scalar.extui (Scalar.cmpi .eq (BitVec.ofNat 32 n.val) 0#32)) 0#32) = 1#1) ↔ n.val = 0 := by
  decide +kernel

theorem coord_snd (t : Fin cfg0.N) : ((grid0.coords t) 1).val = t.val % 49 := by
  show t.val / grid0.stride 1 % grid0.bound 1 = t.val % 49
  rw [show grid0.stride 1 = 1 from by decide, Nat.div_one]; rfl

theorem restart_iff (t : Fin cfg0.N) : restart (grid0.coords t) ↔ t.val % 49 = 0 := by
  rw [← coord_snd t]; exact restart_of_coord ((grid0.coords t) 1)

/-- The running sum the body leaves: the tile product added to `xs`, or to the zero tile where the sum restarts. -/
def acc (i : grid0.Coords) (x0 : Vec F S2048 .i32) (x1 : Vec F S2048x64 .bf16) (xs : Vec F S2048x64 .f32) : Vec F S2048x64 .f32 :=
  k0_pay2 i x0 (if restart i then k0_pay1 else xs) x1

theorem hz1 : (![0] : Fin 1 → Nat) = fun _ => 0 := funext fun a => by fin_cases a; rfl
theorem hz2 : (![0, 0] : Fin 2 → Nat) = fun _ => 0 := funext fun a => by fin_cases a <;> rfl

/-- One run of the body over a running sum `xs`: the running sum ends at `acc`, the output tile at `acc` in the narrower format. -/
theorem run (c : Dev nD) (i : grid0.Coords) (arg2 : Memref sig .tc .vmem S2048 .i32) (harg2 : arg2.IsWhole) (arg3 : Memref sig .tc .vmem S2048x64 .bf16) (harg3 : arg3.IsWhole) (arg4 : Memref sig .tc .vmem S2048x64 .bf16) (harg4 : arg4.IsWhole) (arg5 : Memref sig .tc .vmem S2048x64 .f32) (harg5 : arg5.IsWhole)
    (x0 : Vec F S2048 .i32) (x1 : Vec F S2048x64 .bf16) (xs : Vec F S2048x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay3 (acc i x0 x1 xs)) ∗ owns (c : Thread nD τ) arg5 fullShare (acc i x0 x1 xs)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel acc
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  by_cases hc0 : restart i
  all_goals
    first | rw [if_pos hc0] | rw [if_neg hc0]
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr
      swap; · iexact H2
      ipureintro; sl_unfold_words
      rw [View.read_writes_eq_canon _ _ _ (View.cover_of_tiledL _ S2048x64.size (by sl_kernel_rfl))]
      simp only [View.canon_unit_zero (S := S2048x64) hz2, View.canon_cons_unit_zero (S := S2048x64) hz2, View.readCov_cons_toLoadRect,
        View.readCov_unit_zero (S := S2048x64) _ hz2, View.readAt_eq_ld, harg2.read_unread, harg3.read_unread, harg5.read_unread,
        View.ld_unit_zero (S := S2048x64) hz2, View.ld_unit_zero (S := S2048) hz1]
    iexists _; isplitr
    swap; · iexact HS
    ipureintro; sl_unfold_words
    rw [View.read_writes_eq_canon _ _ _ (View.cover_of_tiledL _ S2048x64.size (by sl_kernel_rfl))]
    simp only [View.canon_unit_zero (S := S2048x64) hz2, View.canon_cons_unit_zero (S := S2048x64) hz2, View.readCov_cons_toLoadRect,
      View.readCov_unit_zero (S := S2048x64) _ hz2, View.readAt_eq_ld, harg2.read_unread, harg3.read_unread, harg5.read_unread,
      View.ld_unit_zero (S := S2048x64) hz2, View.ld_unit_zero (S := S2048) hz1]

theorem acc_of_restart {i : grid0.Coords} (h : restart i) (x0 : Vec F S2048 .i32) (x1 : Vec F S2048x64 .bf16) (xs xs' : Vec F S2048x64 .f32) :
    acc i x0 x1 xs = acc i x0 x1 xs' := by
  unfold acc; rw [if_pos h, if_pos h]

end Cert.KernelIdeal.Gather

end
-- ==== Proof.KernelIdeal.MsgBody.lean ====
import proofs.«401808_j32040456028632_1_alg».proof.Proof.KernelIdeal.GatherRun
import proofs.«401808_j32040456028632_1_alg».proof.Proof.Gen.KernelIdeal.Launch

set_option maxRecDepth 16384

noncomputable section

namespace Cert.KernelIdeal.Msg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Gather

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0 (t : Fin cfg0.N) : Memref sig .tc .vmem S2048 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x64 .bf16 := win0_2.stage (cfg0.slots t 2)
abbrev hs2 (t : Fin cfg0.N) : (ms2 t).IsWhole := hstage0_2 ((cfg0.slots t 2).cast nbuf0_2)
abbrev scM : Memref sig .tc .vmem S2048x64 .f32 := Memref.whole cc0_scratch0

abbrev bodyAt (t : Fin cfg0.N) : Prog (TpuEff nD τ sig (Elt F) Λ₀ .tc) PUnit :=
  cc0__gather_kernel (grid0.coords t) (ms0 t) (hs0 t) (ms1 t) (hs1 t) (ms2 t) (hs2 t) scM (Memref.isWhole_whole _)

abbrev others (c : Dev nD) : sProp 𝕄 :=
  Pipeline.scopedRestBut (Ix := Unit) (Name := ℕ) (U := UR sig nD τ) (Lvl := ℕ) (Val := Elt F) spec0 c [cc0_scratch0]

theorem rest_eq (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ others (F := F) c) := by
  rw [scopedRest0_split]; simp only [scM, owns_whole]; try rfl

/-- The running sum after position `n`: each point adds its tile product to what the point before left. -/
def sumAt (c : Dev nD) : (n : ℕ) → n < cfg0.N → Vec F S2048x64 .f32
  | 0, hn => acc (grid0.coords ⟨0, hn⟩) (iblk V c 0 ⟨0, hn⟩) (iblk V c 1 ⟨0, hn⟩) k0_pay1
  | n + 1, hn => acc (grid0.coords ⟨n + 1, hn⟩) (iblk V c 0 ⟨n + 1, hn⟩) (iblk V c 1 ⟨n + 1, hn⟩) (sumAt c n (Nat.lt_of_succ_lt hn))

/-- The body's sum at `t` over a scratch that holds the previous point's sum (anything at the first point, which restarts). -/
theorem sumAt_step (c : Dev nD) (t : Fin cfg0.N) (d : Vec F S2048x64 .f32)
    (hd : ∀ h : t.val ≠ 0, d = sumAt V c (t.val - 1) (Nat.lt_of_le_of_lt (Nat.sub_le _ _) t.isLt)) :
    acc (grid0.coords t) (iblk V c 0 t) (iblk V c 1 t) d = sumAt V c t.val t.isLt := by
  obtain ⟨n, hn⟩ := t
  cases n with
  | zero => exact acc_of_restart ((restart_iff ⟨0, hn⟩).mpr rfl) _ _ _ _
  | succ n => rw [hd (Nat.succ_ne_zero n)]; rfl

/-- Before position `n` the scratch holds what the point before left (anything at the entry). -/
def PhiS (c : Dev nD) (n : ℕ) (hn : n ≤ cfg0.N) : sProp 𝕄 :=
  iprop(iprop((∃ d, ⌜∀ h : n ≠ 0, d = sumAt V c (n - 1) (by omega)⌝ ∗ owns (c : Thread nD τ) scM fullShare d) ∗ others (F := F) c) ∗ (∃ r, prngReg c r))

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay3 (sumAt V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after_2 (c : Dev nD) (t : Fin cfg0.N) : (dat V c).after 2 t = k0_pay3 (sumAt V c t.val t.isLt) := by dsimp only [dat]

theorem before_0 (c : Dev nD) (t : Fin cfg0.N) (d) : (dat V c).before 0 t d = iblk V c 0 t :=
  ((dat V c).before_in_eq_fetched 0 rfl (fun _ => rfl) (fun _ _ _ => rfl) (fun _ => rfl) t d).trans rfl
theorem before_1 (c : Dev nD) (t : Fin cfg0.N) (d) : (dat V c).before 1 t d = iblk V c 1 t :=
  ((dat V c).before_in_eq_fetched 1 rfl (fun _ => rfl) (fun _ _ _ => rfl) (fun _ => rfl) t d).trans rfl

theorem body_obligation (c : Dev nD) : BodyObligation (dat (F := F) V c) (defs₀ (F := F)) Variants.none () Set.univ := fun t => by
  rw [bigSep_W0, bigSep_W0]
  simp only [before_0, before_1]
  rw [show (dat V c).owesAt () t.succ = (dat V c).owesAt () t.castSucc from rfl,
    show (dat V c).Φ t.succ = PhiS V c (t.val + 1) t.isLt from rfl,
    show (dat V c).Φ t.castSucc = PhiS V c t.val (Nat.le_of_lt t.isLt) from rfl, after_2,
    show (dat V c).after 0 t = iblk V c 0 t from rfl, show (dat V c).after 1 t = iblk V c 1 t from rfl]
  unfold PhiS
  iintro ⟨⟨⟨⟨%d, %hd, HS⟩, Hoth⟩, Hg⟩, Ho, ⟨%d0, H0⟩, ⟨%d1, H1⟩, ⟨%d2, H2⟩⟩
  iapply (run c (grid0.coords t) (ms0 t) (hs0 t) (ms1 t) (hs1 t) (ms2 t) (hs2 t) scM (Memref.isWhole_whole _) (iblk V c 0 t) (iblk V c 1 t) d Set.univ _)
  rw [sumAt_step V c t d hd]
  isplitl [H0]; · iexact H0
  isplitl [H1]; · iexact H1
  isplitl [H2]; · iexists _; iexact H2
  isplitl [HS]; · iexact HS
  iintro ⟨H0, H1, H2, HS⟩
  isplitl [HS Hoth Hg]
  · isplitl [HS Hoth]
    · isplitl [HS]
      · iexists _; isplitr
        swap; · iexact HS
        ipureintro; exact fun _ => rfl
      iexact Hoth
    iexact Hg
  isplitl [Ho]; · iexact Ho
  isplitl [H0]; · iexact H0
  isplitl [H1]; · iexact H1
  iexact H2

/-- The entry invariant from what the region's entry hands over; anything else `P` is dropped. -/
theorem hin_region (c : Dev nD) (P : sProp 𝕄) :
    iprop((∃ r, prngReg c r) ∗ P ∗ Pipeline.scopedRest (Ix := Unit) (Name := ℕ) (U := UR sig nD τ) (Lvl := ℕ) (Val := Elt F) spec0 c)
      ⊢ (dat V c).Φ 0 := by
  rw [show (dat V c).Φ 0 = PhiS V c 0 (Nat.zero_le _) from rfl, rest_eq]; unfold PhiS
  iintro ⟨Hp, -, ⟨%d, HS⟩, Hoth⟩
  isplitl [HS Hoth]
  · isplitl [HS]
    · iexists d; isplitr
      swap; · iexact HS
      ipureintro; exact fun h => absurd rfl h
    iexact Hoth
  iexact Hp

/-- After the last point the invariant gives the same back, the running sum forgotten. -/
theorem hout_region (c : Dev nD) :
    (dat V c).Φ (Fin.last cfg0.N)
      ⊢ iprop((∃ r, prngReg c r) ∗ (BI.emp : sProp 𝕄) ∗ Pipeline.scopedRest (Ix := Unit) (Name := ℕ) (U := UR sig nD τ) (Lvl := ℕ) (Val := Elt F) spec0 c) := by
  rw [rest_eq, show (dat V c).Φ (Fin.last cfg0.N) = PhiS V c (Fin.last cfg0.N).val (Nat.le_of_lt_succ (Fin.last cfg0.N).isLt) from rfl]
  unfold PhiS
  iintro ⟨⟨⟨%d, -, HS⟩, Hoth⟩, Hg⟩
  isplitl [Hg]; · iexact Hg
  isplitr; · iempintro
  isplitl [HS]; · iexists _; iexact HS
  iexact Hoth

end Cert.KernelIdeal.Msg

end
-- ==== Proof.KernelIdeal.ScatterRun.lean ====
import proofs.«401808_j32040456028632_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev restart (i : grid1.Coords) : Prop :=
  (Scalar.cmpi .ne (Scalar.extui (Scalar.cmpi .eq (BitVec.ofNat 32 (i 1).val) 0#32)) 0#32) = 1#1

theorem restart_of_coord : ∀ n : Fin 611,
    ((Scalar.cmpi .ne (Scalar.extui (Scalar.cmpi .eq (BitVec.ofNat 32 n.val) 0#32)) 0#32) = 1#1) ↔ n.val = 0 := by
  decide +kernel

theorem coord_snd (t : Fin cfg1.N) : ((grid1.coords t) 1).val = t.val % 611 := by
  show t.val / grid1.stride 1 % grid1.bound 1 = t.val % 611
  rw [show grid1.stride 1 = 1 from by decide, Nat.div_one]; rfl

theorem restart_iff (t : Fin cfg1.N) : restart (grid1.coords t) ↔ t.val % 611 = 0 := by
  rw [← coord_snd t]; exact restart_of_coord ((grid1.coords t) 1)

/-- The running sum the body leaves: the tile product added to `xs`, or to the zero tile where the sum restarts. -/
def acc (i : grid1.Coords) (x0 : Vec F S2048 .i32) (x1 : Vec F S2048x64 .bf16) (xs : Vec F S2048x64 .f32) : Vec F S2048x64 .f32 :=
  k1_pay2 i x0 (if restart i then k1_pay1 else xs) x1

theorem hz1 : (![0] : Fin 1 → Nat) = fun _ => 0 := funext fun a => by fin_cases a; rfl
theorem hz2 : (![0, 0] : Fin 2 → Nat) = fun _ => 0 := funext fun a => by fin_cases a <;> rfl

/-- One run of the body over a running sum `xs`: the running sum and the output tile both end at `acc`. -/
theorem run (c : Dev nD) (i : grid1.Coords) (arg2 : Memref sig .tc .vmem S2048 .i32) (harg2 : arg2.IsWhole) (arg3 : Memref sig .tc .vmem S2048x64 .bf16) (harg3 : arg3.IsWhole) (arg4 : Memref sig .tc .vmem S2048x64 .f32) (harg4 : arg4.IsWhole) (arg5 : Memref sig .tc .vmem S2048x64 .f32) (harg5 : arg5.IsWhole)
    (x0 : Vec F S2048 .i32) (x1 : Vec F S2048x64 .bf16) (xs : Vec F S2048x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (acc i x0 x1 xs) ∗ owns (c : Thread nD τ) arg5 fullShare (acc i x0 x1 xs)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel acc
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  by_cases hc0 : restart i
  all_goals
    first | rw [if_pos hc0] | rw [if_neg hc0]
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr
      swap; · iexact H2
      ipureintro; sl_unfold_words
      rw [View.read_writes_eq_canon _ _ _ (View.cover_of_tiledL _ S2048x64.size (by sl_kernel_rfl))]
      simp only [View.canon_unit_zero (S := S2048x64) hz2, View.canon_cons_unit_zero (S := S2048x64) hz2, View.readCov_cons_toLoadRect,
        View.readCov_unit_zero (S := S2048x64) _ hz2, View.readAt_eq_ld, harg2.read_unread, harg3.read_unread, harg5.read_unread,
        View.ld_unit_zero (S := S2048x64) hz2, View.ld_unit_zero (S := S2048) hz1]
    iexists _; isplitr
    swap; · iexact HS
    ipureintro; sl_unfold_words
    rw [View.read_writes_eq_canon _ _ _ (View.cover_of_tiledL _ S2048x64.size (by sl_kernel_rfl))]
    simp only [View.canon_unit_zero (S := S2048x64) hz2, View.canon_cons_unit_zero (S := S2048x64) hz2, View.readCov_cons_toLoadRect,
      View.readCov_unit_zero (S := S2048x64) _ hz2, View.readAt_eq_ld, harg2.read_unread, harg3.read_unread, harg5.read_unread,
      View.ld_unit_zero (S := S2048x64) hz2, View.ld_unit_zero (S := S2048) hz1]

theorem acc_of_restart {i : grid1.Coords} (h : restart i) (x0 : Vec F S2048 .i32) (x1 : Vec F S2048x64 .bf16) (xs xs' : Vec F S2048x64 .f32) :
    acc i x0 x1 xs = acc i x0 x1 xs' := by
  unfold acc; rw [if_pos h, if_pos h]

end Cert.KernelIdeal.Scatter

end
-- ==== Proof.KernelIdeal.AggBody.lean ====
import proofs.«401808_j32040456028632_1_alg».proof.Proof.KernelIdeal.ScatterRun
import proofs.«401808_j32040456028632_1_alg».proof.Proof.Gen.KernelIdeal.Launch

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Scatter

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms0 (t : Fin cfg1.N) : Memref sig .tc .vmem S2048 .i32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x64 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S2048x64 .f32 := win1_2.stage (cfg1.slots t 2)
abbrev hs2 (t : Fin cfg1.N) : (ms2 t).IsWhole := hstage1_2 ((cfg1.slots t 2).cast nbuf1_2)
abbrev scM : Memref sig .tc .vmem S2048x64 .f32 := Memref.whole cc1_scratch0

abbrev bodyAt (t : Fin cfg1.N) : Prog (TpuEff nD τ sig (Elt F) Λ₀ .tc) PUnit :=
  cc1__scatter_kernel (grid1.coords t) (ms0 t) (hs0 t) (ms1 t) (hs1 t) (ms2 t) (hs2 t) scM (Memref.isWhole_whole _)

abbrev others (c : Dev nD) : sProp 𝕄 :=
  Pipeline.scopedRestBut (Ix := Unit) (Name := ℕ) (U := UR sig nD τ) (Lvl := ℕ) (Val := Elt F) spec1 c [cc1_scratch0]

theorem rest_eq (c : Dev nD) :
    (Pipeline.scopedRest (Ix := Unit) (Name := ℕ) (U := UR sig nD τ) (Lvl := ℕ) (Val := Elt F) spec1 c : sProp 𝕄)
      = iprop((∃ d, owns (c : Thread nD τ) scM fullShare d) ∗ others (F := F) c) := by
  rw [scopedRest1_split]; simp only [scM, owns_whole]; try rfl

/-- The running sum after position `n`: each point adds its tile product to what the point before left. -/
def sumAt (c : Dev nD) : (n : ℕ) → n < cfg1.N → Vec F S2048x64 .f32
  | 0, hn => acc (grid1.coords ⟨0, hn⟩) (iblk V c 0 ⟨0, hn⟩) (iblk V c 1 ⟨0, hn⟩) k1_pay1
  | n + 1, hn => acc (grid1.coords ⟨n + 1, hn⟩) (iblk V c 0 ⟨n + 1, hn⟩) (iblk V c 1 ⟨n + 1, hn⟩) (sumAt c n (Nat.lt_of_succ_lt hn))

/-- The body's sum at `t` over a scratch that holds the previous point's sum (anything at the first point, which restarts). -/
theorem sumAt_step (c : Dev nD) (t : Fin cfg1.N) (d : Vec F S2048x64 .f32)
    (hd : ∀ h : t.val ≠ 0, d = sumAt V c (t.val - 1) (Nat.lt_of_le_of_lt (Nat.sub_le _ _) t.isLt)) :
    acc (grid1.coords t) (iblk V c 0 t) (iblk V c 1 t) d = sumAt V c t.val t.isLt := by
  obtain ⟨n, hn⟩ := t
  cases n with
  | zero => exact acc_of_restart ((restart_iff ⟨0, hn⟩).mpr rfl) _ _ _ _
  | succ n => rw [hd (Nat.succ_ne_zero n)]; rfl

/-- Before position `n` the scratch holds what the point before left (anything at the entry). -/
def PhiS (c : Dev nD) (n : ℕ) (hn : n ≤ cfg1.N) : sProp 𝕄 :=
  iprop(iprop((∃ d, ⌜∀ h : n ≠ 0, d = sumAt V c (n - 1) (by omega)⌝ ∗ owns (c : Thread nD τ) scM fullShare d) ∗ others (F := F) c) ∗ (∃ r, prngReg c r))

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => sumAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after_2 (c : Dev nD) (t : Fin cfg1.N) : (dat V c).after 2 t = sumAt V c t.val t.isLt := by dsimp only [dat]

theorem before_0 (c : Dev nD) (t : Fin cfg1.N) (d) : (dat V c).before 0 t d = iblk V c 0 t :=
  ((dat V c).before_in_eq_fetched 0 rfl (fun _ => rfl) (fun _ _ _ => rfl) (fun _ => rfl) t d).trans rfl
theorem before_1 (c : Dev nD) (t : Fin cfg1.N) (d) : (dat V c).before 1 t d = iblk V c 1 t :=
  ((dat V c).before_in_eq_fetched 1 rfl (fun _ => rfl) (fun _ _ _ => rfl) (fun _ => rfl) t d).trans rfl

theorem body_obligation (c : Dev nD) : BodyObligation (dat (F := F) V c) (defs₀ (F := F)) Variants.none () Set.univ := fun t => by
  rw [bigSep_W1, bigSep_W1]
  simp only [before_0, before_1]
  rw [show (dat V c).owesAt () t.succ = (dat V c).owesAt () t.castSucc from rfl,
    show (dat V c).Φ t.succ = PhiS V c (t.val + 1) t.isLt from rfl,
    show (dat V c).Φ t.castSucc = PhiS V c t.val (Nat.le_of_lt t.isLt) from rfl, after_2,
    show (dat V c).after 0 t = iblk V c 0 t from rfl, show (dat V c).after 1 t = iblk V c 1 t from rfl]
  unfold PhiS
  iintro ⟨⟨⟨⟨%d, %hd, HS⟩, Hoth⟩, Hg⟩, Ho, ⟨%d0, H0⟩, ⟨%d1, H1⟩, ⟨%d2, H2⟩⟩
  iapply (run c (grid1.coords t) (ms0 t) (hs0 t) (ms1 t) (hs1 t) (ms2 t) (hs2 t) scM (Memref.isWhole_whole _) (iblk V c 0 t) (iblk V c 1 t) d Set.univ _)
  rw [sumAt_step V c t d hd]
  isplitl [H0]; · iexact H0
  isplitl [H1]; · iexact H1
  isplitl [H2]; · iexists _; iexact H2
  isplitl [HS]; · iexact HS
  iintro ⟨H0, H1, H2, HS⟩
  isplitl [HS Hoth Hg]
  · isplitl [HS Hoth]
    · isplitl [HS]
      · iexists _; isplitr
        swap; · iexact HS
        ipureintro; exact fun _ => rfl
      iexact Hoth
    iexact Hg
  isplitl [Ho]; · iexact Ho
  isplitl [H0]; · iexact H0
  isplitl [H1]; · iexact H1
  iexact H2

/-- The entry invariant from what the region's entry hands over; anything else `P` is dropped. -/
theorem hin_region (c : Dev nD) (P : sProp 𝕄) :
    iprop((∃ r, prngReg c r) ∗ P ∗ Pipeline.scopedRest (Ix := Unit) (Name := ℕ) (U := UR sig nD τ) (Lvl := ℕ) (Val := Elt F) spec1 c)
      ⊢ (dat V c).Φ 0 := by
  rw [show (dat V c).Φ 0 = PhiS V c 0 (Nat.zero_le _) from rfl, rest_eq]; unfold PhiS
  iintro ⟨Hp, -, ⟨%d, HS⟩, Hoth⟩
  isplitl [HS Hoth]
  · isplitl [HS]
    · iexists d; isplitr
      swap; · iexact HS
      ipureintro; exact fun h => absurd rfl h
    iexact Hoth
  iexact Hp

/-- After the last point the invariant gives the same back, the running sum forgotten. -/
theorem hout_region (c : Dev nD) :
    (dat V c).Φ (Fin.last cfg1.N)
      ⊢ iprop((∃ r, prngReg c r) ∗ (BI.emp : sProp 𝕄) ∗ Pipeline.scopedRest (Ix := Unit) (Name := ℕ) (U := UR sig nD τ) (Lvl := ℕ) (Val := Elt F) spec1 c) := by
  rw [rest_eq, show (dat V c).Φ (Fin.last cfg1.N) = PhiS V c (Fin.last cfg1.N).val (Nat.le_of_lt_succ (Fin.last cfg1.N).isLt) from rfl]
  unfold PhiS
  iintro ⟨⟨⟨%d, -, HS⟩, Hoth⟩, Hg⟩
  isplitl [Hg]; · iexact Hg
  isplitr; · iempintro
  isplitl [HS]; · iexists _; iexact HS
  iexact Hoth

end Cert.KernelIdeal.Agg

end
-- ==== Proof.KernelIdeal.ReluBody.lean ====
import proofs.«401808_j32040456028632_1_alg».proof.Proof.Gen.KernelIdeal.Launch
import proofs.«401808_j32040456028632_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Relu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_in_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg2.N) : Memref sig .tc .vmem S2048x64 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S2048x64 .bf16 := win2_1.stage (cfg2.slots t 1)
abbrev hs1 (t : Fin cfg2.N) : (ms1 t).IsWhole := hstage2_1 ((cfg2.slots t 1).cast nbuf2_1)
abbrev bodyAt (t : Fin cfg2.N) : Prog (TpuEff nD τ sig (Elt F) Λ₀ .tc) PUnit :=
  cc2__relu_cast_kernel (grid2.coords t) (ms0 t) (hs0 t) (ms1 t) (hs1 t)

abbrev tile : Rect S2048x64 := Rect.unit (s := S2048x64) ![0, 0] S2048x64.size inb_S2048x64_S2048x64_0_0

def out (x0 : Vec F S2048x64 .f32) : Vec F S2048x64 .bf16 :=
  View.canon [⟨tile, k2_pay1 (View.ld x0 tile)⟩]

theorem cover_out (p0 : Vec F S2048x64 .bf16) (y : S2048x64.Idx) :
    ∃ pc ∈ ([⟨tile, p0⟩] : List (View.Piece (Elt F) S2048x64 .bf16)), y ∈ pc.1.set :=
  View.cover_of_tiled [⟨tile, p0⟩] S2048x64.size (by rfl) y

set_option maxHeartbeats 1000000 in

theorem sound_kernel (c : Dev nD) (E : Set ℕ) (i : grid2.Coords) (arg1 : Memref sig .tc .vmem S2048x64 .f32) (harg1 : arg1.IsWhole) (arg2 : Memref sig .tc .vmem S2048x64 .bf16) (harg2 : arg2.IsWhole)
    (x0 : Vec F S2048x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc2__relu_cast_kernel i arg1 harg1 arg2 harg2) K := by
  simp only [cc2__relu_cast_kernel_eq_skeleton]; unfold cc2__relu_cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => out (iblk V c 0 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = out (iblk V c 0 t) := by dsimp only [dat]

theorem before_0 (c : Dev nD) (t : Fin cfg2.N) (d) : (dat V c).before 0 t d = iblk V c 0 t :=
  before_in_of V (dat V c) (A_eq V c 0) (after_0 V c) t d

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d)))

def bodyPost (c : Dev nD) (t : Fin cfg2.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t))

theorem sound_body (c : Dev nD) (t : Fin cfg2.N) :
    bodyPre V c t ⊢ wp frame (wpE (defs₀ (F := F)) Variants.none c none) Set.univ (bodyAt t) (fun _ => bodyPost V c t) := by
  unfold bodyPre bodyPost bodyAt
  simp only [before_0]
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩⟩
  iapply (sound_kernel c Set.univ _ _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dat (F := F) V c) (defs₀ (F := F)) Variants.none () Set.univ := fun t => by
  rw [bigSep_W2, bigSep_W2]
  exact sound_body V c t

theorem hin_region (c : Dev nD) (P : sProp 𝕄) :
    iprop((∃ r, prngReg c r) ∗ P ∗ Pipeline.scopedRest (Ix := Unit) (Name := ℕ) (U := UR sig nD τ) (Lvl := ℕ) (Val := Elt F) spec2 c)
      ⊢ (dat V c).Φ 0 := by
  rw [show (dat V c).Φ 0 = Pipeline.ΦA spec2 c from rfl]; unfold Pipeline.ΦA
  iintro ⟨Hp, -, Hr⟩
  isplitl [Hr]; · iexact Hr
  iexact Hp

theorem hout_region (c : Dev nD) :
    (dat V c).Φ (Fin.last cfg2.N)
      ⊢ iprop((∃ r, prngReg c r) ∗ (BI.emp : sProp 𝕄) ∗ Pipeline.scopedRest (Ix := Unit) (Name := ℕ) (U := UR sig nD τ) (Lvl := ℕ) (Val := Elt F) spec2 c) := by
  rw [show (dat V c).Φ (Fin.last cfg2.N) = Pipeline.ΦA spec2 c from rfl]; unfold Pipeline.ΦA
  iintro ⟨Hr, Hp⟩
  isplitl [Hp]; · iexact Hp
  isplitr; · iempintro
  iexact Hr

end Cert.KernelIdeal.Relu

end
-- ==== Proof.KernelIdeal.Msg2Body.lean ====
import proofs.«401808_j32040456028632_1_alg».proof.Proof.KernelIdeal.GatherRun
import proofs.«401808_j32040456028632_1_alg».proof.Proof.Gen.KernelIdeal.Launch

set_option maxRecDepth 16384

noncomputable section

namespace Cert.KernelIdeal.Msg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Gather

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev ms0 (t : Fin cfg3.N) : Memref sig .tc .vmem S2048 .i32 := win3_0.stage (cfg3.slots t 0)
abbrev hs0 (t : Fin cfg3.N) : (ms0 t).IsWhole := hstage3_0 ((cfg3.slots t 0).cast nbuf3_0)
abbrev ms1 (t : Fin cfg3.N) : Memref sig .tc .vmem S2048x64 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S2048x64 .bf16 := win3_2.stage (cfg3.slots t 2)
abbrev hs2 (t : Fin cfg3.N) : (ms2 t).IsWhole := hstage3_2 ((cfg3.slots t 2).cast nbuf3_2)
abbrev scM : Memref sig .tc .vmem S2048x64 .f32 := Memref.whole cc3_scratch0

abbrev bodyAt (t : Fin cfg3.N) : Prog (TpuEff nD τ sig (Elt F) Λ₀ .tc) PUnit :=
  cc3__gather_kernel (grid3.coords t) (ms0 t) (hs0 t) (ms1 t) (hs1 t) (ms2 t) (hs2 t) scM (Memref.isWhole_whole _)

abbrev others (c : Dev nD) : sProp 𝕄 :=
  Pipeline.scopedRestBut (Ix := Unit) (Name := ℕ) (U := UR sig nD τ) (Lvl := ℕ) (Val := Elt F) spec3 c [cc3_scratch0]

theorem rest_eq (c : Dev nD) :
    (Pipeline.scopedRest (Ix := Unit) (Name := ℕ) (U := UR sig nD τ) (Lvl := ℕ) (Val := Elt F) spec3 c : sProp 𝕄)
      = iprop((∃ d, owns (c : Thread nD τ) scM fullShare d) ∗ others (F := F) c) := by
  rw [scopedRest3_split]; simp only [scM, owns_whole]; try rfl

/-- The running sum after position `n`: each point adds its tile product to what the point before left. -/
def sumAt (c : Dev nD) : (n : ℕ) → n < cfg3.N → Vec F S2048x64 .f32
  | 0, hn => acc (grid3.coords ⟨0, hn⟩) (iblk V c 0 ⟨0, hn⟩) (iblk V c 1 ⟨0, hn⟩) k0_pay1
  | n + 1, hn => acc (grid3.coords ⟨n + 1, hn⟩) (iblk V c 0 ⟨n + 1, hn⟩) (iblk V c 1 ⟨n + 1, hn⟩) (sumAt c n (Nat.lt_of_succ_lt hn))

/-- The body's sum at `t` over a scratch that holds the previous point's sum (anything at the first point, which restarts). -/
theorem sumAt_step (c : Dev nD) (t : Fin cfg3.N) (d : Vec F S2048x64 .f32)
    (hd : ∀ h : t.val ≠ 0, d = sumAt V c (t.val - 1) (Nat.lt_of_le_of_lt (Nat.sub_le _ _) t.isLt)) :
    acc (grid3.coords t) (iblk V c 0 t) (iblk V c 1 t) d = sumAt V c t.val t.isLt := by
  obtain ⟨n, hn⟩ := t
  cases n with
  | zero => exact acc_of_restart ((restart_iff ⟨0, hn⟩).mpr rfl) _ _ _ _
  | succ n => rw [hd (Nat.succ_ne_zero n)]; rfl

/-- Before position `n` the scratch holds what the point before left (anything at the entry). -/
def PhiS (c : Dev nD) (n : ℕ) (hn : n ≤ cfg3.N) : sProp 𝕄 :=
  iprop(iprop((∃ d, ⌜∀ h : n ≠ 0, d = sumAt V c (n - 1) (by omega)⌝ ∗ owns (c : Thread nD τ) scM fullShare d) ∗ others (F := F) c) ∗ (∃ r, prngReg c r))

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => k0_pay3 (sumAt V c t.val t.isLt)
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem after_2 (c : Dev nD) (t : Fin cfg3.N) : (dat V c).after 2 t = k0_pay3 (sumAt V c t.val t.isLt) := by dsimp only [dat]

theorem before_0 (c : Dev nD) (t : Fin cfg3.N) (d) : (dat V c).before 0 t d = iblk V c 0 t :=
  ((dat V c).before_in_eq_fetched 0 rfl (fun _ => rfl) (fun _ _ _ => rfl) (fun _ => rfl) t d).trans rfl
theorem before_1 (c : Dev nD) (t : Fin cfg3.N) (d) : (dat V c).before 1 t d = iblk V c 1 t :=
  ((dat V c).before_in_eq_fetched 1 rfl (fun _ => rfl) (fun _ _ _ => rfl) (fun _ => rfl) t d).trans rfl

theorem body_obligation (c : Dev nD) : BodyObligation (dat (F := F) V c) (defs₀ (F := F)) Variants.none () Set.univ := fun t => by
  rw [bigSep_W3, bigSep_W3]
  simp only [before_0, before_1]
  rw [show (dat V c).owesAt () t.succ = (dat V c).owesAt () t.castSucc from rfl,
    show (dat V c).Φ t.succ = PhiS V c (t.val + 1) t.isLt from rfl,
    show (dat V c).Φ t.castSucc = PhiS V c t.val (Nat.le_of_lt t.isLt) from rfl, after_2,
    show (dat V c).after 0 t = iblk V c 0 t from rfl, show (dat V c).after 1 t = iblk V c 1 t from rfl]
  unfold PhiS
  iintro ⟨⟨⟨⟨%d, %hd, HS⟩, Hoth⟩, Hg⟩, Ho, ⟨%d0, H0⟩, ⟨%d1, H1⟩, ⟨%d2, H2⟩⟩
  iapply (run c (grid3.coords t) (ms0 t) (hs0 t) (ms1 t) (hs1 t) (ms2 t) (hs2 t) scM (Memref.isWhole_whole _) (iblk V c 0 t) (iblk V c 1 t) d Set.univ _)
  rw [sumAt_step V c t d hd]
  isplitl [H0]; · iexact H0
  isplitl [H1]; · iexact H1
  isplitl [H2]; · iexists _; iexact H2
  isplitl [HS]; · iexact HS
  iintro ⟨H0, H1, H2, HS⟩
  isplitl [HS Hoth Hg]
  · isplitl [HS Hoth]
    · isplitl [HS]
      · iexists _; isplitr
        swap; · iexact HS
        ipureintro; exact fun _ => rfl
      iexact Hoth
    iexact Hg
  isplitl [Ho]; · iexact Ho
  isplitl [H0]; · iexact H0
  isplitl [H1]; · iexact H1
  iexact H2

/-- The entry invariant from what the region's entry hands over; anything else `P` is dropped. -/
theorem hin_region (c : Dev nD) (P : sProp 𝕄) :
    iprop((∃ r, prngReg c r) ∗ P ∗ Pipeline.scopedRest (Ix := Unit) (Name := ℕ) (U := UR sig nD τ) (Lvl := ℕ) (Val := Elt F) spec3 c)
      ⊢ (dat V c).Φ 0 := by
  rw [show (dat V c).Φ 0 = PhiS V c 0 (Nat.zero_le _) from rfl, rest_eq]; unfold PhiS
  iintro ⟨Hp, -, ⟨%d, HS⟩, Hoth⟩
  isplitl [HS Hoth]
  · isplitl [HS]
    · iexists d; isplitr
      swap; · iexact HS
      ipureintro; exact fun h => absurd rfl h
    iexact Hoth
  iexact Hp

/-- After the last point the invariant gives the same back, the running sum forgotten. -/
theorem hout_region (c : Dev nD) :
    (dat V c).Φ (Fin.last cfg3.N)
      ⊢ iprop((∃ r, prngReg c r) ∗ (BI.emp : sProp 𝕄) ∗ Pipeline.scopedRest (Ix := Unit) (Name := ℕ) (U := UR sig nD τ) (Lvl := ℕ) (Val := Elt F) spec3 c) := by
  rw [rest_eq, show (dat V c).Φ (Fin.last cfg3.N) = PhiS V c (Fin.last cfg3.N).val (Nat.le_of_lt_succ (Fin.last cfg3.N).isLt) from rfl]
  unfold PhiS
  iintro ⟨⟨⟨%d, -, HS⟩, Hoth⟩, Hg⟩
  isplitl [Hg]; · iexact Hg
  isplitr; · iempintro
  isplitl [HS]; · iexists _; iexact HS
  iexact Hoth

end Cert.KernelIdeal.Msg2

end
-- ==== Proof.KernelIdeal.Agg2Body.lean ====
import proofs.«401808_j32040456028632_1_alg».proof.Proof.KernelIdeal.ScatterRun
import proofs.«401808_j32040456028632_1_alg».proof.Proof.Gen.KernelIdeal.Launch

set_option maxRecDepth 16384

noncomputable section

namespace Cert.KernelIdeal.Agg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Scatter

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev ms0 (t : Fin cfg4.N) : Memref sig .tc .vmem S2048 .i32 := win4_0.stage (cfg4.slots t 0)
abbrev hs0 (t : Fin cfg4.N) : (ms0 t).IsWhole := hstage4_0 ((cfg4.slots t 0).cast nbuf4_0)
abbrev ms1 (t : Fin cfg4.N) : Memref sig .tc .vmem S2048x64 .bf16 := win4_1.stage (cfg4.slots t 1)
abbrev hs1 (t : Fin cfg4.N) : (ms1 t).IsWhole := hstage4_1 ((cfg4.slots t 1).cast nbuf4_1)
abbrev ms2 (t : Fin cfg4.N) : Memref sig .tc .vmem S2048x64 .f32 := win4_2.stage (cfg4.slots t 2)
abbrev hs2 (t : Fin cfg4.N) : (ms2 t).IsWhole := hstage4_2 ((cfg4.slots t 2).cast nbuf4_2)
abbrev scM : Memref sig .tc .vmem S2048x64 .f32 := Memref.whole cc4_scratch0

abbrev bodyAt (t : Fin cfg4.N) : Prog (TpuEff nD τ sig (Elt F) Λ₀ .tc) PUnit :=
  cc4__scatter_kernel (grid4.coords t) (ms0 t) (hs0 t) (ms1 t) (hs1 t) (ms2 t) (hs2 t) scM (Memref.isWhole_whole _)

abbrev others (c : Dev nD) : sProp 𝕄 :=
  Pipeline.scopedRestBut (Ix := Unit) (Name := ℕ) (U := UR sig nD τ) (Lvl := ℕ) (Val := Elt F) spec4 c [cc4_scratch0]

theorem rest_eq (c : Dev nD) :
    (Pipeline.scopedRest (Ix := Unit) (Name := ℕ) (U := UR sig nD τ) (Lvl := ℕ) (Val := Elt F) spec4 c : sProp 𝕄)
      = iprop((∃ d, owns (c : Thread nD τ) scM fullShare d) ∗ others (F := F) c) := by
  rw [scopedRest4_split]; simp only [scM, owns_whole]; try rfl

/-- The running sum after position `n`: each point adds its tile product to what the point before left. -/
def sumAt (c : Dev nD) : (n : ℕ) → n < cfg4.N → Vec F S2048x64 .f32
  | 0, hn => acc (grid4.coords ⟨0, hn⟩) (iblk V c 0 ⟨0, hn⟩) (iblk V c 1 ⟨0, hn⟩) k1_pay1
  | n + 1, hn => acc (grid4.coords ⟨n + 1, hn⟩) (iblk V c 0 ⟨n + 1, hn⟩) (iblk V c 1 ⟨n + 1, hn⟩) (sumAt c n (Nat.lt_of_succ_lt hn))

/-- The body's sum at `t` over a scratch that holds the previous point's sum (anything at the first point, which restarts). -/
theorem sumAt_step (c : Dev nD) (t : Fin cfg4.N) (d : Vec F S2048x64 .f32)
    (hd : ∀ h : t.val ≠ 0, d = sumAt V c (t.val - 1) (Nat.lt_of_le_of_lt (Nat.sub_le _ _) t.isLt)) :
    acc (grid4.coords t) (iblk V c 0 t) (iblk V c 1 t) d = sumAt V c t.val t.isLt := by
  obtain ⟨n, hn⟩ := t
  cases n with
  | zero => exact acc_of_restart ((restart_iff ⟨0, hn⟩).mpr rfl) _ _ _ _
  | succ n => rw [hd (Nat.succ_ne_zero n)]; rfl

/-- Before position `n` the scratch holds what the point before left (anything at the entry). -/
def PhiS (c : Dev nD) (n : ℕ) (hn : n ≤ cfg4.N) : sProp 𝕄 :=
  iprop(iprop((∃ d, ⌜∀ h : n ≠ 0, d = sumAt V c (n - 1) (by omega)⌝ ∗ owns (c : Thread nD τ) scM fullShare d) ∗ others (F := F) c) ∗ (∃ r, prngReg c r))

def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => sumAt V c t.val t.isLt
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]

theorem after_2 (c : Dev nD) (t : Fin cfg4.N) : (dat V c).after 2 t = sumAt V c t.val t.isLt := by dsimp only [dat]

theorem before_0 (c : Dev nD) (t : Fin cfg4.N) (d) : (dat V c).before 0 t d = iblk V c 0 t :=
  ((dat V c).before_in_eq_fetched 0 rfl (fun _ => rfl) (fun _ _ _ => rfl) (fun _ => rfl) t d).trans rfl
theorem before_1 (c : Dev nD) (t : Fin cfg4.N) (d) : (dat V c).before 1 t d = iblk V c 1 t :=
  ((dat V c).before_in_eq_fetched 1 rfl (fun _ => rfl) (fun _ _ _ => rfl) (fun _ => rfl) t d).trans rfl

theorem body_obligation (c : Dev nD) : BodyObligation (dat (F := F) V c) (defs₀ (F := F)) Variants.none () Set.univ := fun t => by
  rw [bigSep_W4, bigSep_W4]
  simp only [before_0, before_1]
  rw [show (dat V c).owesAt () t.succ = (dat V c).owesAt () t.castSucc from rfl,
    show (dat V c).Φ t.succ = PhiS V c (t.val + 1) t.isLt from rfl,
    show (dat V c).Φ t.castSucc = PhiS V c t.val (Nat.le_of_lt t.isLt) from rfl, after_2,
    show (dat V c).after 0 t = iblk V c 0 t from rfl, show (dat V c).after 1 t = iblk V c 1 t from rfl]
  unfold PhiS
  iintro ⟨⟨⟨⟨%d, %hd, HS⟩, Hoth⟩, Hg⟩, Ho, ⟨%d0, H0⟩, ⟨%d1, H1⟩, ⟨%d2, H2⟩⟩
  iapply (run c (grid4.coords t) (ms0 t) (hs0 t) (ms1 t) (hs1 t) (ms2 t) (hs2 t) scM (Memref.isWhole_whole _) (iblk V c 0 t) (iblk V c 1 t) d Set.univ _)
  rw [sumAt_step V c t d hd]
  isplitl [H0]; · iexact H0
  isplitl [H1]; · iexact H1
  isplitl [H2]; · iexists _; iexact H2
  isplitl [HS]; · iexact HS
  iintro ⟨H0, H1, H2, HS⟩
  isplitl [HS Hoth Hg]
  · isplitl [HS Hoth]
    · isplitl [HS]
      · iexists _; isplitr
        swap; · iexact HS
        ipureintro; exact fun _ => rfl
      iexact Hoth
    iexact Hg
  isplitl [Ho]; · iexact Ho
  isplitl [H0]; · iexact H0
  isplitl [H1]; · iexact H1
  iexact H2

/-- The entry invariant from what the region's entry hands over; anything else `P` is dropped. -/
theorem hin_region (c : Dev nD) (P : sProp 𝕄) :
    iprop((∃ r, prngReg c r) ∗ P ∗ Pipeline.scopedRest (Ix := Unit) (Name := ℕ) (U := UR sig nD τ) (Lvl := ℕ) (Val := Elt F) spec4 c)
      ⊢ (dat V c).Φ 0 := by
  rw [show (dat V c).Φ 0 = PhiS V c 0 (Nat.zero_le _) from rfl, rest_eq]; unfold PhiS
  iintro ⟨Hp, -, ⟨%d, HS⟩, Hoth⟩
  isplitl [HS Hoth]
  · isplitl [HS]
    · iexists d; isplitr
      swap; · iexact HS
      ipureintro; exact fun h => absurd rfl h
    iexact Hoth
  iexact Hp

/-- After the last point the invariant gives the same back, the running sum forgotten. -/
theorem hout_region (c : Dev nD) :
    (dat V c).Φ (Fin.last cfg4.N)
      ⊢ iprop((∃ r, prngReg c r) ∗ (BI.emp : sProp 𝕄) ∗ Pipeline.scopedRest (Ix := Unit) (Name := ℕ) (U := UR sig nD τ) (Lvl := ℕ) (Val := Elt F) spec4 c) := by
  rw [rest_eq, show (dat V c).Φ (Fin.last cfg4.N) = PhiS V c (Fin.last cfg4.N).val (Nat.le_of_lt_succ (Fin.last cfg4.N).isLt) from rfl]
  unfold PhiS
  iintro ⟨⟨⟨%d, -, HS⟩, Hoth⟩, Hg⟩
  isplitl [Hg]; · iexact Hg
  isplitr; · iempintro
  isplitl [HS]; · iexists _; iexact HS
  iexact Hoth

end Cert.KernelIdeal.Agg2

end
-- ==== Proof.KernelIdeal.Whole.lean ====
import proofs.«401808_j32040456028632_1_alg».proof.Proof.KernelIdeal.MsgBody
import proofs.«401808_j32040456028632_1_alg».proof.Proof.KernelIdeal.AggBody
import proofs.«401808_j32040456028632_1_alg».proof.Proof.KernelIdeal.ReluBody
import proofs.«401808_j32040456028632_1_alg».proof.Proof.KernelIdeal.Msg2Body
import proofs.«401808_j32040456028632_1_alg».proof.Proof.KernelIdeal.Agg2Body
import proofs.«401808_j32040456028632_1_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev M0 : Dev nD → Valuation τ sig (Elt F) := fun c b => (s₀ m ρ).mem ((c : Dev nD), b)

abbrev M1 : Dev nD → Valuation τ sig (Elt F) := fun c => StableHlo.after hostOps0 (M0 m ρ c)
abbrev T1 : (c : Dev nD) → (b : Ref sig .tc) → Buf (Elt F) ((c : Thread nD τ).loc b) := fun c b => M1 m ρ c b

def M2 (c : Dev nD) : Valuation τ sig (Elt F) :=
  Pipeline.withArrays spec0 c (M1 m ρ c) fun w => (Msg.dat (T1 m ρ) c).arrAt w cfg0.N
theorem M2_arr (c : Dev nD) (w : Fin cfg0.W) :
    M2 m ρ c (Proc.devRef .tc (Pipeline.arrRef spec0 w)) = (Msg.dat (T1 m ρ) c).arrAt w cfg0.N := by
  unfold M2; exact Pipeline.withArrays_arr spec0 launch0.win.arr_inj c _ _ w
theorem M2_of_ne (c : Dev nD) (b : Ref sig .tc) (hb : ∀ w, Pipeline.arrRef spec0 w ≠ b) :
    M2 m ρ c (Proc.devRef .tc b) = M1 m ρ c (Proc.devRef .tc b) := by
  unfold M2; exact Pipeline.withArrays_of_ne spec0 c _ _ b hb

abbrev T2 : (c : Dev nD) → (b : Ref sig .tc) → Buf (Elt F) ((c : Thread nD τ).loc b) := fun c b => M2 m ρ c b
theorem hF0 (c : Dev nD) (w : Fin cfg0.W) : (Msg.dat (T1 m ρ) c).arrAt w cfg0.N = T2 m ρ c (Pipeline.arrRef spec0 w) :=
  (M2_arr m ρ c w).symm
theorem hrest0 (c : Dev nD) : ∀ b, b ∉ Finset.univ.image (Pipeline.arrRef spec0) → T2 m ρ c b = T1 m ρ c b :=
  fun b hb => M2_of_ne m ρ c b fun w e => hb (Finset.mem_image.mpr ⟨w, Finset.mem_univ _, e⟩)

def M3 (c : Dev nD) : Valuation τ sig (Elt F) :=
  Pipeline.withArrays spec1 c (M2 m ρ c) fun w => (Agg.dat (T2 m ρ) c).arrAt w cfg1.N
theorem M3_arr (c : Dev nD) (w : Fin cfg1.W) :
    M3 m ρ c (Proc.devRef .tc (Pipeline.arrRef spec1 w)) = (Agg.dat (T2 m ρ) c).arrAt w cfg1.N := by
  unfold M3; exact Pipeline.withArrays_arr spec1 launch1.win.arr_inj c _ _ w
theorem M3_of_ne (c : Dev nD) (b : Ref sig .tc) (hb : ∀ w, Pipeline.arrRef spec1 w ≠ b) :
    M3 m ρ c (Proc.devRef .tc b) = M2 m ρ c (Proc.devRef .tc b) := by
  unfold M3; exact Pipeline.withArrays_of_ne spec1 c _ _ b hb

abbrev T3 : (c : Dev nD) → (b : Ref sig .tc) → Buf (Elt F) ((c : Thread nD τ).loc b) := fun c b => M3 m ρ c b
theorem hF1 (c : Dev nD) (w : Fin cfg1.W) : (Agg.dat (T2 m ρ) c).arrAt w cfg1.N = T3 m ρ c (Pipeline.arrRef spec1 w) :=
  (M3_arr m ρ c w).symm
theorem hrest1 (c : Dev nD) : ∀ b, b ∉ Finset.univ.image (Pipeline.arrRef spec1) → T3 m ρ c b = T2 m ρ c b :=
  fun b hb => M3_of_ne m ρ c b fun w e => hb (Finset.mem_image.mpr ⟨w, Finset.mem_univ _, e⟩)

def M4 (c : Dev nD) : Valuation τ sig (Elt F) :=
  Pipeline.withArrays spec2 c (M3 m ρ c) fun w => (Relu.dat (T3 m ρ) c).arrAt w cfg2.N
theorem M4_arr (c : Dev nD) (w : Fin cfg2.W) :
    M4 m ρ c (Proc.devRef .tc (Pipeline.arrRef spec2 w)) = (Relu.dat (T3 m ρ) c).arrAt w cfg2.N := by
  unfold M4; exact Pipeline.withArrays_arr spec2 launch2.win.arr_inj c _ _ w
theorem M4_of_ne (c : Dev nD) (b : Ref sig .tc) (hb : ∀ w, Pipeline.arrRef spec2 w ≠ b) :
    M4 m ρ c (Proc.devRef .tc b) = M3 m ρ c (Proc.devRef .tc b) := by
  unfold M4; exact Pipeline.withArrays_of_ne spec2 c _ _ b hb

abbrev T4 : (c : Dev nD) → (b : Ref sig .tc) → Buf (Elt F) ((c : Thread nD τ).loc b) := fun c b => M4 m ρ c b
theorem hF2 (c : Dev nD) (w : Fin cfg2.W) : (Relu.dat (T3 m ρ) c).arrAt w cfg2.N = T4 m ρ c (Pipeline.arrRef spec2 w) :=
  (M4_arr m ρ c w).symm
theorem hrest2 (c : Dev nD) : ∀ b, b ∉ Finset.univ.image (Pipeline.arrRef spec2) → T4 m ρ c b = T3 m ρ c b :=
  fun b hb => M4_of_ne m ρ c b fun w e => hb (Finset.mem_image.mpr ⟨w, Finset.mem_univ _, e⟩)

def M5 (c : Dev nD) : Valuation τ sig (Elt F) :=
  Pipeline.withArrays spec3 c (M4 m ρ c) fun w => (Msg2.dat (T4 m ρ) c).arrAt w cfg3.N
theorem M5_arr (c : Dev nD) (w : Fin cfg3.W) :
    M5 m ρ c (Proc.devRef .tc (Pipeline.arrRef spec3 w)) = (Msg2.dat (T4 m ρ) c).arrAt w cfg3.N := by
  unfold M5; exact Pipeline.withArrays_arr spec3 launch3.win.arr_inj c _ _ w
theorem M5_of_ne (c : Dev nD) (b : Ref sig .tc) (hb : ∀ w, Pipeline.arrRef spec3 w ≠ b) :
    M5 m ρ c (Proc.devRef .tc b) = M4 m ρ c (Proc.devRef .tc b) := by
  unfold M5; exact Pipeline.withArrays_of_ne spec3 c _ _ b hb

abbrev T5 : (c : Dev nD) → (b : Ref sig .tc) → Buf (Elt F) ((c : Thread nD τ).loc b) := fun c b => M5 m ρ c b
theorem hF3 (c : Dev nD) (w : Fin cfg3.W) : (Msg2.dat (T4 m ρ) c).arrAt w cfg3.N = T5 m ρ c (Pipeline.arrRef spec3 w) :=
  (M5_arr m ρ c w).symm
theorem hrest3 (c : Dev nD) : ∀ b, b ∉ Finset.univ.image (Pipeline.arrRef spec3) → T5 m ρ c b = T4 m ρ c b :=
  fun b hb => M5_of_ne m ρ c b fun w e => hb (Finset.mem_image.mpr ⟨w, Finset.mem_univ _, e⟩)

def M6 (c : Dev nD) : Valuation τ sig (Elt F) :=
  Pipeline.withArrays spec4 c (M5 m ρ c) fun w => (Agg2.dat (T5 m ρ) c).arrAt w cfg4.N
theorem M6_arr (c : Dev nD) (w : Fin cfg4.W) :
    M6 m ρ c (Proc.devRef .tc (Pipeline.arrRef spec4 w)) = (Agg2.dat (T5 m ρ) c).arrAt w cfg4.N := by
  unfold M6; exact Pipeline.withArrays_arr spec4 launch4.win.arr_inj c _ _ w
theorem M6_of_ne (c : Dev nD) (b : Ref sig .tc) (hb : ∀ w, Pipeline.arrRef spec4 w ≠ b) :
    M6 m ρ c (Proc.devRef .tc b) = M5 m ρ c (Proc.devRef .tc b) := by
  unfold M6; exact Pipeline.withArrays_of_ne spec4 c _ _ b hb

abbrev T6 : (c : Dev nD) → (b : Ref sig .tc) → Buf (Elt F) ((c : Thread nD τ).loc b) := fun c b => M6 m ρ c b
theorem hF4 (c : Dev nD) (w : Fin cfg4.W) : (Agg2.dat (T5 m ρ) c).arrAt w cfg4.N = T6 m ρ c (Pipeline.arrRef spec4 w) :=
  (M6_arr m ρ c w).symm
theorem hrest4 (c : Dev nD) : ∀ b, b ∉ Finset.univ.image (Pipeline.arrRef spec4) → T6 m ρ c b = T5 m ρ c b :=
  fun b hb => M6_of_ne m ρ c b fun w e => hb (Finset.mem_image.mpr ⟨w, Finset.mem_univ _, e⟩)

abbrev M7 : Dev nD → Valuation τ sig (Elt F) := fun c => StableHlo.after hostOps5 (M6 m ρ c)

theorem M7_main_arg0 (c : Dev nD) : M7 m ρ c (Proc.devRef .tc main_arg0) = m ((c : Thread nD τ).loc main_arg0) :=
  calc M7 m ρ c (Proc.devRef .tc main_arg0)
    _ = M6 m ρ c (Proc.devRef .tc main_arg0) := StableHlo.after_of_writes_sub hostOps5 _ hostOps5_writes (show main_arg0 ∉ hostOps5_W by decide)
    _ = M5 m ρ c (Proc.devRef .tc main_arg0) := M6_of_ne m ρ c main_arg0 (by decide)
    _ = M4 m ρ c (Proc.devRef .tc main_arg0) := M5_of_ne m ρ c main_arg0 (by decide)
    _ = M3 m ρ c (Proc.devRef .tc main_arg0) := M4_of_ne m ρ c main_arg0 (by decide)
    _ = M2 m ρ c (Proc.devRef .tc main_arg0) := M3_of_ne m ρ c main_arg0 (by decide)
    _ = M1 m ρ c (Proc.devRef .tc main_arg0) := M2_of_ne m ρ c main_arg0 (by decide)
    _ = M0 m ρ c (Proc.devRef .tc main_arg0) := StableHlo.after_of_writes_sub hostOps0 _ hostOps0_writes (show main_arg0 ∉ hostOps0_W by decide)
    _ = m ((c : Thread nD τ).loc main_arg0) := rfl

theorem M7_main_arg1 (c : Dev nD) : M7 m ρ c (Proc.devRef .tc main_arg1) = m ((c : Thread nD τ).loc main_arg1) :=
  calc M7 m ρ c (Proc.devRef .tc main_arg1)
    _ = M6 m ρ c (Proc.devRef .tc main_arg1) := StableHlo.after_of_writes_sub hostOps5 _ hostOps5_writes (show main_arg1 ∉ hostOps5_W by decide)
    _ = M5 m ρ c (Proc.devRef .tc main_arg1) := M6_of_ne m ρ c main_arg1 (by decide)
    _ = M4 m ρ c (Proc.devRef .tc main_arg1) := M5_of_ne m ρ c main_arg1 (by decide)
    _ = M3 m ρ c (Proc.devRef .tc main_arg1) := M4_of_ne m ρ c main_arg1 (by decide)
    _ = M2 m ρ c (Proc.devRef .tc main_arg1) := M3_of_ne m ρ c main_arg1 (by decide)
    _ = M1 m ρ c (Proc.devRef .tc main_arg1) := M2_of_ne m ρ c main_arg1 (by decide)
    _ = M0 m ρ c (Proc.devRef .tc main_arg1) := StableHlo.after_of_writes_sub hostOps0 _ hostOps0_writes (show main_arg1 ∉ hostOps0_W by decide)
    _ = m ((c : Thread nD τ).loc main_arg1) := rfl

def pdats : (p : Fin 5) → (c : Dev nD) → Dat τ (Elt F) Unit ℕ (UR sig nD τ) ℕ (Pipeline.pin (pcfgs (F := F)) adm p) c
  | ⟨0, _⟩ => fun c => Msg.dat (T1 m ρ) c
  | ⟨1, _⟩ => fun c => Agg.dat (T2 m ρ) c
  | ⟨2, _⟩ => fun c => Relu.dat (T3 m ρ) c
  | ⟨3, _⟩ => fun c => Msg2.dat (T4 m ρ) c
  | ⟨4, _⟩ => fun c => Agg2.dat (T5 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Msg.body_obligation (T1 m ρ) c).loose
  hwaits := Pipeline.hwaits_of_owed_zero _ _ _ _ L lv 0 fun _ _ => rfl
  pre c := iprop(StableHlo.held (c : Thread nD τ) (Pipeline.ucRefs τ sig) (M1 m ρ c) ∗ R c)
  post c := iprop(StableHlo.held (c : Thread nD τ) (Pipeline.ucRefs τ sig) (M2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Msg.hin_region (T1 m ρ) c _
  hout c := by
    rw [Pipeline.ownSems0_none]
    exact Msg.hout_region (T1 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (T1 m ρ c) (T2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Agg.body_obligation (T2 m ρ) c).loose
  hwaits := Pipeline.hwaits_of_owed_zero _ _ _ _ L lv 1 fun _ _ => rfl
  pre c := iprop(StableHlo.held (c : Thread nD τ) (Pipeline.ucRefs τ sig) (M2 m ρ c) ∗ R c)
  post c := iprop(StableHlo.held (c : Thread nD τ) (Pipeline.ucRefs τ sig) (M3 m ρ c) ∗ R c)
  X c := iprop(∃ r, prngReg c r)
  Y c := iprop(∃ r, prngReg c r)
  Z c := Pipeline.unscopedRest (Ix := Unit) (Name := ℕ) (U := UR sig nD τ) (Lvl := ℕ) spec1 c (T2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (T2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Agg.hin_region (T2 m ρ) c _
  hout c := by
    rw [Pipeline.ownSems0_none]
    exact Agg.hout_region (T2 m ρ) c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (T2 m ρ c) (T3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Relu.body_obligation (T3 m ρ) c).loose
  hwaits := Pipeline.hwaits_of_owed_zero _ _ _ _ L lv 2 fun _ _ => rfl
  pre c := iprop(StableHlo.held (c : Thread nD τ) (Pipeline.ucRefs τ sig) (M3 m ρ c) ∗ R c)
  post c := iprop(StableHlo.held (c : Thread nD τ) (Pipeline.ucRefs τ sig) (M4 m ρ c) ∗ R c)
  X c := iprop(∃ r, prngReg c r)
  Y c := iprop(∃ r, prngReg c r)
  Z c := Pipeline.unscopedRest (Ix := Unit) (Name := ℕ) (U := UR sig nD τ) (Lvl := ℕ) spec2 c (T3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Relu.hin_region (T3 m ρ) c _
  hout c := by
    rw [Pipeline.ownSems0_none]
    exact Relu.hout_region (T3 m ρ) c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (T3 m ρ c) (T4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Msg2.body_obligation (T4 m ρ) c).loose
  hwaits := Pipeline.hwaits_of_owed_zero _ _ _ _ L lv 3 fun _ _ => rfl
  pre c := iprop(StableHlo.held (c : Thread nD τ) (Pipeline.ucRefs τ sig) (M4 m ρ c) ∗ R c)
  post c := iprop(StableHlo.held (c : Thread nD τ) (Pipeline.ucRefs τ sig) (M5 m ρ c) ∗ R c)
  X c := iprop(∃ r, prngReg c r)
  Y c := iprop(∃ r, prngReg c r)
  Z c := Pipeline.unscopedRest (Ix := Unit) (Name := ℕ) (U := UR sig nD τ) (Lvl := ℕ) spec3 c (T4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (T4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Msg2.hin_region (T4 m ρ) c _
  hout c := by
    rw [Pipeline.ownSems0_none]
    exact Msg2.hout_region (T4 m ρ) c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (T4 m ρ c) (T5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Agg2.body_obligation (T5 m ρ) c).loose
  hwaits := Pipeline.hwaits_of_owed_zero _ _ _ _ L lv 4 fun _ _ => rfl
  pre c := iprop(StableHlo.held (c : Thread nD τ) (Pipeline.ucRefs τ sig) (M5 m ρ c) ∗ R c)
  post c := iprop(StableHlo.held (c : Thread nD τ) (Pipeline.ucRefs τ sig) (M6 m ρ c) ∗ R c)
  X c := iprop(∃ r, prngReg c r)
  Y c := iprop(∃ r, prngReg c r)
  Z c := Pipeline.unscopedRest (Ix := Unit) (Name := ℕ) (U := UR sig nD τ) (Lvl := ℕ) spec4 c (T5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Agg2.hin_region (T5 m ρ) c _
  hout c := by
    rw [Pipeline.ownSems0_none]
    exact Agg2.hout_region (T5 m ρ) c
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (T5 m ρ c) (T6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (M0 m ρ)),
    .region (reg0 m ρ), .region (reg1 m ρ), .region (reg2 m ρ), .region (reg3 m ρ), .region (reg4 m ρ),
    .host (hseg hostOps5 hostOps5_sub hostOps5_fresh (M6 m ρ)) ]

theorem main_run (c : Dev nD) : main (F := F) c = Pipeline.Seg.run (segs m ρ) := (main_chain c).trans (by chain_rfl)

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = M7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m ρ c) ∗ R c))
    (Tₙ := fun c => iprop(StableHlo.held (c : Thread nD τ) (Pipeline.ucRefs τ sig) (M7 m ρ c) ∗ ∃ r, prngReg c r))
    (hch := ⟨fun _ => .rfl, fun _ => .rfl, fun _ => .rfl, fun _ => .rfl, fun _ => .rfl, fun _ => .rfl, fun _ => .rfl,
      fun c => (show iprop(StableHlo.held (c : Thread nD τ) (Pipeline.ucRefs τ sig) (M7 m ρ c) ∗ R c)
          ⊢ (iprop(iprop(StableHlo.held (c : Thread nD τ) (Pipeline.ucRefs τ sig) (M7 m ρ c) ∗ ∃ r, prngReg c r)
              ∗ ∃ W, owes (c : Thread nD τ) (0 : CellTallies nD τ sig Unit) W) : sProp 𝕄) from by
        iintro ⟨Hh, ⟨Hp, HO⟩⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M7 m ρ c b)
    (hfin := fun c s' => by
      iintro ⟨⟨Hh, -⟩, HSI⟩
      unfold StableHlo.held
      imodintro
      iapply (pointsTo_read_all (Pipeline.ucRefs τ sig) (fun b => (((c : Thread nD τ)).1, b)) (M7 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (M7_main_arg0 m ρ c),
     (h c _ (mem_uc main_arg1 (by decide))).trans (M7_main_arg1 m ρ c)⟩) (run m ρ)

end Cert.KernelIdeal.Whole

end
-- ==== Proof.KernelIdeal.HostVal.lean ====
import proofs.«401808_j32040456028632_1_alg».proof.Proof.Gen.KernelIdeal.Launch
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal

set_option maxRecDepth 16384

noncomputable section

namespace Cert.KernelIdeal.HostVal

open Idealize.ShloMosaic Idealize.ShloMosaic.TcCoe Idealize.ShloMosaic.ValueIdx
open Idealize.SL Idealize.SL.Sem
open Cert.KernelIdeal Cert.KernelIdeal.Gen

variable (W : Valuation τ sig (Elt Ideal))

theorem row_pad_read (r : Nat) (r' : Fin 2) (hr' : r'.val = r) (a : IVec S2x1250000 32) (c : BitVec 32)
    (hs : S2x1250000.Slices ![r, 0] S1x1250000) (hc : S1x1250000.ShapeCasts S1250000)
    (hb : S_.BroadcastsInDim S1328 (![] : Fin 0 → Fin S1328.rank))
    (hcat : Shape.Concatenates [S1250000, S1328] S1251328 0) (e : Fin 1251328) :
    concatenate S1251328 0
        [⟨S1250000, shapeCast S1250000 (extractStridedSlice S1x1250000 ![r, 0] a hs) hc⟩,
         ⟨S1328, broadcastInDim S1328 ![] hb (constantI S_ 32 c)⟩] hcat (ix1 e)
      = if h : e.val < 1250000 then a (ix2 r' ⟨e.val, h⟩) else c := by
  by_cases h : e.val < 1250000
  · rw [dif_pos h, concatenate_pair_apply_left (t := S1251328) (s₁ := S1250000) (s₂ := S1328) (0 : Fin 1) _ _ hcat (ix1 e) rfl (ix1 (⟨e.val, h⟩ : Fin 1250000))
      (fun b => by match b with | ⟨0, _⟩ => rfl)]
    rw [shapeCast_1a_a_apply]
    exact slice2_axis0_apply r a hs (0 : Fin 1) ⟨e.val, h⟩ r' (by rw [hr']; rfl)
  · have he := e.isLt
    rw [dif_neg h, concatenate_pair_apply_right (t := S1251328) (s₁ := S1250000) (s₂ := S1328) (0 : Fin 1) _ _ hcat (ix1 e) rfl rfl
      (ix1 (⟨e.val - 1250000, by omega⟩ : Fin 1328))
      (fun b hb => absurd (Subsingleton.elim _ _) hb)
      (by show e.val - 1250000 + 1250000 = e.val; omega)]
    rfl

theorem src_pad (e : Fin 1251328) :
    (StableHlo.after (hostOps0 (F := Ideal)) W (Proc.devRef .tc main_v5) : IVec S1251328 32) (ix1 e)
      = if h : e.val < 1250000 then (W (Proc.devRef .tc main_arg1) : IVec S2x1250000 32) (ix2 (0 : Fin 2) ⟨e.val, h⟩)
        else 4294967295#32 := by
  have E : (StableHlo.after (hostOps0 (F := Ideal)) W (Proc.devRef .tc main_v5) : IVec S1251328 32)
      = concatenate S1251328 0
          [⟨S1250000, shapeCast S1250000 (extractStridedSlice S1x1250000 ![0, 0]
              (W (Proc.devRef .tc main_arg1) : IVec S2x1250000 32) Facts₀.slices_S2x1250000_S1x1250000_0_0)
              Facts₀.shapeCasts_S1x1250000_S1250000⟩,
           ⟨S1328, broadcastInDim S1328 ![] Facts₀.bcast_S_S1328 (constantI S_ 32 4294967295#32)⟩]
          Facts₀.concatenates_S1250000_S1328_S1251328_d0 := by
    dsimp only [hostOps0]; after_results; rfl
  rw [E]
  exact row_pad_read 0 0 rfl _ _ _ _ _ _ e

theorem dst_pad (e : Fin 1251328) :
    (StableHlo.after (hostOps0 (F := Ideal)) W (Proc.devRef .tc main_v6) : IVec S1251328 32) (ix1 e)
      = if h : e.val < 1250000 then (W (Proc.devRef .tc main_arg1) : IVec S2x1250000 32) (ix2 (1 : Fin 2) ⟨e.val, h⟩)
        else 4294967295#32 := by
  have E : (StableHlo.after (hostOps0 (F := Ideal)) W (Proc.devRef .tc main_v6) : IVec S1251328 32)
      = concatenate S1251328 0
          [⟨S1250000, shapeCast S1250000 (extractStridedSlice S1x1250000 ![1, 0]
              (W (Proc.devRef .tc main_arg1) : IVec S2x1250000 32) Facts₀.slices_S2x1250000_S1x1250000_1_0)
              Facts₀.shapeCasts_S1x1250000_S1250000⟩,
           ⟨S1328, broadcastInDim S1328 ![] Facts₀.bcast_S_S1328 (constantI S_ 32 4294967295#32)⟩]
          Facts₀.concatenates_S1250000_S1328_S1251328_d0 := by
    dsimp only [hostOps0]; after_results; rfl
  rw [E]
  exact row_pad_read 1 1 rfl _ _ _ _ _ _ e

theorem bf16_zero : Ideal.ofBits .bf16 0x0000#16 = 0 := by simp [Ideal.ofBits, Ideal.ieee]

theorem tab_pad_read (a : FVec Ideal S100000x64 .f32) (hlt : FTy.bits .bf16 < FTy.bits .f32)
    (hb : S_.BroadcastsInDim S352x64 (![] : Fin 0 → Fin S352x64.rank))
    (hcat : Shape.Concatenates [S100000x64, S352x64] S100352x64 0) (n : Fin 100352) (d : Fin 64) :
    concatenate S100352x64 0
        [⟨S100000x64, (truncf .bf16 a hlt : FVec Ideal S100000x64 .bf16)⟩,
         ⟨S352x64, broadcastInDim S352x64 ![] hb (constant (F := Ideal) S_ .bf16 0x0000#16)⟩] hcat (ix2 n d)
      = if h : n.val < 100000 then a (ix2 ⟨n.val, h⟩ d) else (0 : EReal) := by
  by_cases h : n.val < 100000
  · rw [dif_pos h, concatenate_pair_apply_left (t := S100352x64) (s₁ := S100000x64) (s₂ := S352x64) (0 : Fin 2) _ _ hcat
      (ix2 n d) rfl (ix2 (⟨n.val, h⟩ : Fin 100000) d)
      (fun b => by match b with | ⟨0, _⟩ => rfl | ⟨1, _⟩ => rfl)]
    rfl
  · have hn := n.isLt
    rw [dif_neg h, concatenate_pair_apply_right (t := S100352x64) (s₁ := S100000x64) (s₂ := S352x64) (0 : Fin 2) _ _ hcat
      (ix2 n d) rfl rfl (ix2 (⟨n.val - 100000, by omega⟩ : Fin 352) d)
      (fun b hb => by match b with | ⟨0, _⟩ => exact absurd rfl hb | ⟨1, _⟩ => rfl)
      (by show n.val - 100000 + 100000 = n.val; omega)]
    exact bf16_zero

theorem tab_pad (n : Fin 100352) (d : Fin 64) :
    (StableHlo.after (hostOps0 (F := Ideal)) W (Proc.devRef .tc main_v9) : FVec Ideal S100352x64 .bf16) (ix2 n d)
      = if h : n.val < 100000 then (W (Proc.devRef .tc main_arg0) : FVec Ideal S100000x64 .f32) (ix2 ⟨n.val, h⟩ d)
        else (0 : EReal) := by
  have E : (StableHlo.after (hostOps0 (F := Ideal)) W (Proc.devRef .tc main_v9) : FVec Ideal S100352x64 .bf16)
      = concatenate S100352x64 0
          [⟨S100000x64, (truncf .bf16 (W (Proc.devRef .tc main_arg0) : FVec Ideal S100000x64 .f32)
              Facts₀.bitsLt_bf16_f32 : FVec Ideal S100000x64 .bf16)⟩,
           ⟨S352x64, broadcastInDim S352x64 ![] Facts₀.bcast_S_S352x64 (constant (F := Ideal) S_ .bf16 0x0000#16)⟩]
          Facts₀.concatenates_S100000x64_S352x64_S100352x64_d0 := by
    dsimp only [hostOps0]; after_results
  rw [E]
  exact tab_pad_read _ _ _ _ n d

theorem out_rows (v : Fin 100000) (d : Fin 64) :
    (StableHlo.after (hostOps5 (F := Ideal)) W (Proc.devRef .tc main_v15) : FVec Ideal S100000x64 .f32) (ix2 v d)
      = (W (Proc.devRef .tc main_v14) : FVec Ideal S100352x64 .f32) (ix2 ⟨v.val, by have := v.isLt; omega⟩ d) := by
  have E : (StableHlo.after (hostOps5 (F := Ideal)) W (Proc.devRef .tc main_v15) : FVec Ideal S100000x64 .f32)
      = extractStridedSlice S100000x64 ![0, 0] (W (Proc.devRef .tc main_v14) : FVec Ideal S100352x64 .f32)
          Facts₀.slices_S100352x64_S100000x64_0_0 := by
    dsimp only [hostOps5]; after_results
  rw [E]
  exact slice2_axis0_apply 0 _ _ v d _ (by show v.val = 0 + v.val; omega)

end Cert.KernelIdeal.HostVal

end
-- ==== Proof.KernelIdeal.GatherMath.lean ====
import proofs.«401808_j32040456028632_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option maxRecDepth 16384

noncomputable section

open scoped BigOperators

namespace Cert.KernelIdeal.Gather

open Idealize.ShloMosaic Idealize.ShloMosaic.TcCoe Idealize.ShloMosaic.ValueIdx Idealize.ShloMosaic.Tactic
open Idealize.SL Idealize.SL.Sem
open Idealize.ShloMosaic.Pipeline (Dat)
open Cert.KernelIdeal Cert.KernelIdeal.Gen

def hot (k : ℕ) (w : BitVec 32) (j : Fin 2048) : EReal :=
  if w = BitVec.ofNat 32 k * 2048#32 + BitVec.ofNat 32 j.val then 1 else 0

theorem bit_toInt : ∀ c : Bool, ((BitVec.ofBool c).setWidth 32).toInt = if c then 1 else 0 := by decide

theorem sitofp_cmpi_eq (a b : BitVec 32) :
    ((((IntOp.cmpi .eq a b).setWidth 32).toInt : ℝ) : EReal) = if a = b then 1 else 0 := by
  unfold IntOp.cmpi
  rw [bit_toInt]
  by_cases h : a = b
  · simp [h]
  · simp [h]

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

theorem onehot_apply (k : BitVec 32) (x0 : IVec S2048 32) (r j : Fin 2048) :
    (truncf .bf16 (sitofp .f32
        (extui 32
          (cmpi CmpIPredicate.eq
            (broadcastTo S2048x2048 (shapeCast S2048x1 x0 shapeCasts_S2048_S2048x1) broadcasts_S2048x1_S2048x2048)
            (broadcastTo S2048x2048
              (addi (broadcast S1x2048 (Scalar.muli k 2048#32)) (iota Kind.tc S1x2048 32 [1] iota_S1x2048_d1_w32))
              broadcasts_S1x2048_S2048x2048))
          natLt_1_32) : FVec Ideal S2048x2048 .f32) bitsLt_bf16_f32 : FVec Ideal S2048x2048 .bf16) (ix2 r j)
      = if x0 (ix1 r) = k * 2048#32 + BitVec.ofNat 32 j.val then (1 : EReal) else 0 := by
  rw [truncf_apply, sitofp_apply, extui_apply]
  show ((((IntOp.cmpi .eq _ _).setWidth 32).toInt : ℝ) : EReal) = _
  rw [sitofp_cmpi_eq, broadcastTo_a1_ab_apply, shapeCast_a_a1_apply, broadcastTo_1b_ab_apply]
  show (if x0 (ix1 r) = IntOp.addi (Scalar.muli k 2048#32) (iota Kind.tc S1x2048 32 [1] iota_S1x2048_d1_w32 (ix2 (0 : Fin 1) j)) then (1 : EReal) else 0) = _
  rw [iota_single_apply]
  rfl

theorem lhs_axis0 (j : S2048x64.Idx) (k : dot_S2048x2048_S2048x64_S2048x64_1_0_0_1_n_n.contr.Idx) :
    (dot_S2048x2048_S2048x64_S2048x64_1_0_0_1_n_n.lhsIdx j k 0).val = (j 0).val := by
  simp [DotDims.lhsIdx, dot_S2048x2048_S2048x64_S2048x64_1_0_0_1_n_n]
  rfl
theorem lhs_axis1 (j : S2048x64.Idx) (k : dot_S2048x2048_S2048x64_S2048x64_1_0_0_1_n_n.contr.Idx) :
    (dot_S2048x2048_S2048x64_S2048x64_1_0_0_1_n_n.lhsIdx j k 1).val = (k ⟨0, by decide⟩).val :=
  dot_S2048x2048_S2048x64_S2048x64_1_0_0_1_n_n.lhsIdx_val_of_single rfl j k
theorem rhs_axis0 (j : S2048x64.Idx) (k : dot_S2048x2048_S2048x64_S2048x64_1_0_0_1_n_n.contr.Idx) :
    (dot_S2048x2048_S2048x64_S2048x64_1_0_0_1_n_n.rhsIdx j k 0).val = (k ⟨0, by decide⟩).val :=
  dot_S2048x2048_S2048x64_S2048x64_1_0_0_1_n_n.rhsIdx_val_of_single rfl j k
theorem rhs_axis1 (j : S2048x64.Idx) (k : dot_S2048x2048_S2048x64_S2048x64_1_0_0_1_n_n.contr.Idx) :
    (dot_S2048x2048_S2048x64_S2048x64_1_0_0_1_n_n.rhsIdx j k 1).val = (j 1).val := by
  simp [DotDims.rhsIdx, dot_S2048x2048_S2048x64_S2048x64_1_0_0_1_n_n]
  rfl

theorem tile_matmul_apply (A : FVec Ideal S2048x2048 .bf16) (B : FVec Ideal S2048x64 .bf16) (r : Fin 2048) (d : Fin 64) :
    matmul dot_S2048x2048_S2048x64_S2048x64_1_0_0_1_n_n none A B (constant S2048x64 .f32 0x00000000#32) (ix2 r d)
      = ∑ j : Fin 2048, A (ix2 r j) * B (ix2 j d) := by
  simp only [matmul]
  rw [Ideal.matmul_constant_zero_apply, ← Equiv.sum_comp (contrEquiv1 dot_S2048x2048_S2048x64_S2048x64_1_0_0_1_n_n 2048 rfl rfl).symm]
  refine Finset.sum_congr rfl fun j _ => ?_
  have hk := contrEquiv1_symm_val dot_S2048x2048_S2048x64_S2048x64_1_0_0_1_n_n 2048 rfl rfl j
  congr 1
  · refine congrArg A (funext fun a => Fin.ext ?_)
    match a with
    | ⟨0, _⟩ => exact lhs_axis0 _ _
    | ⟨1, _⟩ => exact (lhs_axis1 _ _).trans hk
  · refine congrArg B (funext fun a => Fin.ext ?_)
    match a with
    | ⟨0, _⟩ => exact (rhs_axis0 _ _).trans hk
    | ⟨1, _⟩ => exact rhs_axis1 _ _

theorem pay2_apply (i : grid0.Coords) (x0 : Vec Ideal S2048 .i32) (s : Vec Ideal S2048x64 .f32) (x1 : Vec Ideal S2048x64 .bf16)
    (r : Fin 2048) (d : Fin 64) :
    k0_pay2 (F := Ideal) i x0 s x1 (ix2 r d) = s (ix2 r d) + ∑ j : Fin 2048, hot (i 1).val (x0 (ix1 r)) j * x1 (ix2 j d) := by
  unfold k0_pay2
  dsimp only
  rw [shapeCast_self, shapeCast_self, shapeCast_self, addf_apply, tile_matmul_apply]
  refine congrArg (s (ix2 r d) + ·) (Finset.sum_congr rfl fun j _ => ?_)
  rw [onehot_apply]
  rfl

theorem pay1_apply (y : S2048x64.Idx) : k0_pay1 (F := Ideal) y = 0 := by
  unfold k0_pay1
  rw [shapeCast_self, broadcast_apply]
  exact Ideal.ofBits_zero_f32

end Cert.KernelIdeal.Gather

end
-- ==== Proof.KernelIdeal.Sched.lean ====
import proofs.«401808_j32040456028632_1_alg».proof.Proof.Gen.KernelIdeal.Launch

set_option maxRecDepth 16384

noncomputable section

namespace Cert.KernelIdeal.Sched

open Idealize.ShloMosaic Idealize.ShloMosaic.TcCoe
open Idealize.SL Idealize.SL.Sem
open Cert.KernelIdeal Cert.KernelIdeal.Gen

theorem index0_0 (t : Fin cfg0.N) : win0_0.index t = ![t.val / 49] := by
  have hN : t.val < 29939 := lt_of_lt_of_eq t.isLt N_0
  funext a
  match a with
  | ⟨0, _⟩ =>
    show (BitVec.ofNat 32 ((grid0.coords t) 0).val).toNat = t.val / 49
    have h0 : ((grid0.coords t) 0).val = t.val / 49 := by
      show t.val / grid0.stride 0 % grid0.bound 0 = _
      rw [show grid0.stride 0 = 49 from by decide, show grid0.bound 0 = 611 from rfl]
      exact Nat.mod_eq_of_lt (by omega)
    rw [h0, BitVec.toNat_ofNat]
    exact Nat.mod_eq_of_lt (by omega)

theorem index0_1 (t : Fin cfg0.N) : win0_1.index t = ![t.val % 49, 0] := by
  have hN : t.val < 29939 := lt_of_lt_of_eq t.isLt N_0
  funext a
  match a with
  | ⟨0, _⟩ =>
    show (BitVec.ofNat 32 ((grid0.coords t) 1).val).toNat = t.val % 49
    have h1 : ((grid0.coords t) 1).val = t.val % 49 := by
      show t.val / grid0.stride 1 % grid0.bound 1 = _
      rw [show grid0.stride 1 = 1 from by decide, show grid0.bound 1 = 49 from rfl, Nat.div_one]
    rw [h1, BitVec.toNat_ofNat]
    exact Nat.mod_eq_of_lt (by omega)
  | ⟨1, _⟩ => rfl

theorem index0_2 (t : Fin cfg0.N) : win0_2.index t = ![t.val / 49, 0] := by
  have hN : t.val < 29939 := lt_of_lt_of_eq t.isLt N_0
  funext a
  match a with
  | ⟨0, _⟩ =>
    show (BitVec.ofNat 32 ((grid0.coords t) 0).val).toNat = t.val / 49
    have h0 : ((grid0.coords t) 0).val = t.val / 49 := by
      show t.val / grid0.stride 0 % grid0.bound 0 = _
      rw [show grid0.stride 0 = 49 from by decide, show grid0.bound 0 = 611 from rfl]
      exact Nat.mod_eq_of_lt (by omega)
    rw [h0, BitVec.toNat_ofNat]
    exact Nat.mod_eq_of_lt (by omega)
  | ⟨1, _⟩ => rfl

theorem flush0_2 (t : Fin cfg0.N) : (cfg0.win 2).flush t = true ↔ t.val % 49 = 48 := by
  have hN : t.val < 29939 := lt_of_lt_of_eq t.isLt N_0
  have hG : grid0.N = 29939 := N_0
  show (win0_2.isOut && (decide (t.val + 1 = grid0.N) || decide (∃ h : t.val + 1 < grid0.N, win0_2.index ⟨t.val + 1, h⟩ ≠ win0_2.index t))) = true ↔ _
  rw [show win0_2.isOut = true from rfl, Bool.true_and, Bool.or_eq_true, decide_eq_true_eq, decide_eq_true_eq]
  constructor
  · rintro (h | ⟨h, hne⟩)
    · omega
    · rw [index0_2, index0_2] at hne
      by_contra hc
      exact hne (by show ![(t.val + 1) / 49, 0] = ![t.val / 49, 0]; rw [show (t.val + 1) / 49 = t.val / 49 from by omega])
  · intro h
    by_cases hl : t.val + 1 = grid0.N
    · exact .inl hl
    · refine .inr ⟨by omega, ?_⟩
      rw [index0_2, index0_2]
      intro he
      have := congrFun he 0
      simp only [Matrix.cons_val_zero] at this
      omega

theorem index1_0 (t : Fin cfg1.N) : win1_0.index t = ![t.val % 611] := by
  have hN : t.val < 29939 := lt_of_lt_of_eq t.isLt N_1
  funext a
  match a with
  | ⟨0, _⟩ =>
    show (BitVec.ofNat 32 ((grid1.coords t) 1).val).toNat = t.val % 611
    have h1 : ((grid1.coords t) 1).val = t.val % 611 := by
      show t.val / grid1.stride 1 % grid1.bound 1 = _
      rw [show grid1.stride 1 = 1 from by decide, show grid1.bound 1 = 611 from rfl, Nat.div_one]
    rw [h1, BitVec.toNat_ofNat]
    exact Nat.mod_eq_of_lt (by omega)

theorem index1_1 (t : Fin cfg1.N) : win1_1.index t = ![t.val % 611, 0] := by
  have hN : t.val < 29939 := lt_of_lt_of_eq t.isLt N_1
  funext a
  match a with
  | ⟨0, _⟩ =>
    show (BitVec.ofNat 32 ((grid1.coords t) 1).val).toNat = t.val % 611
    have h1 : ((grid1.coords t) 1).val = t.val % 611 := by
      show t.val / grid1.stride 1 % grid1.bound 1 = _
      rw [show grid1.stride 1 = 1 from by decide, show grid1.bound 1 = 611 from rfl, Nat.div_one]
    rw [h1, BitVec.toNat_ofNat]
    exact Nat.mod_eq_of_lt (by omega)
  | ⟨1, _⟩ => rfl

theorem index1_2 (t : Fin cfg1.N) : win1_2.index t = ![t.val / 611, 0] := by
  have hN : t.val < 29939 := lt_of_lt_of_eq t.isLt N_1
  funext a
  match a with
  | ⟨0, _⟩ =>
    show (BitVec.ofNat 32 ((grid1.coords t) 0).val).toNat = t.val / 611
    have h0 : ((grid1.coords t) 0).val = t.val / 611 := by
      show t.val / grid1.stride 0 % grid1.bound 0 = _
      rw [show grid1.stride 0 = 611 from by decide, show grid1.bound 0 = 49 from rfl]
      exact Nat.mod_eq_of_lt (by omega)
    rw [h0, BitVec.toNat_ofNat]
    exact Nat.mod_eq_of_lt (by omega)
  | ⟨1, _⟩ => rfl

theorem flush1_2 (t : Fin cfg1.N) : (cfg1.win 2).flush t = true ↔ t.val % 611 = 610 := by
  have hN : t.val < 29939 := lt_of_lt_of_eq t.isLt N_1
  have hG : grid1.N = 29939 := N_1
  show (win1_2.isOut && (decide (t.val + 1 = grid1.N) || decide (∃ h : t.val + 1 < grid1.N, win1_2.index ⟨t.val + 1, h⟩ ≠ win1_2.index t))) = true ↔ _
  rw [show win1_2.isOut = true from rfl, Bool.true_and, Bool.or_eq_true, decide_eq_true_eq, decide_eq_true_eq]
  constructor
  · rintro (h | ⟨h, hne⟩)
    · omega
    · rw [index1_2, index1_2] at hne
      by_contra hc
      exact hne (by show ![(t.val + 1) / 611, 0] = ![t.val / 611, 0]; rw [show (t.val + 1) / 611 = t.val / 611 from by omega])
  · intro h
    by_cases hl : t.val + 1 = grid1.N
    · exact .inl hl
    · refine .inr ⟨by omega, ?_⟩
      rw [index1_2, index1_2]
      intro he
      have := congrFun he 0
      simp only [Matrix.cons_val_zero] at this
      omega

theorem index2_0 (t : Fin cfg2.N) : win2_0.index t = ![t.val, 0] := by
  have hN : t.val < 49 := lt_of_lt_of_eq t.isLt N_2
  funext a
  match a with
  | ⟨0, _⟩ =>
    show (BitVec.ofNat 32 ((grid2.coords t) 0).val).toNat = t.val
    have h0 : ((grid2.coords t) 0).val = t.val := by
      show t.val / grid2.stride 0 % grid2.bound 0 = _
      rw [show grid2.stride 0 = 1 from by decide, show grid2.bound 0 = 49 from rfl, Nat.div_one]
      exact Nat.mod_eq_of_lt hN
    rw [h0, BitVec.toNat_ofNat]
    exact Nat.mod_eq_of_lt (by omega)
  | ⟨1, _⟩ => rfl

theorem index2_1 (t : Fin cfg2.N) : win2_1.index t = ![t.val, 0] := by
  have hN : t.val < 49 := lt_of_lt_of_eq t.isLt N_2
  funext a
  match a with
  | ⟨0, _⟩ =>
    show (BitVec.ofNat 32 ((grid2.coords t) 0).val).toNat = t.val
    have h0 : ((grid2.coords t) 0).val = t.val := by
      show t.val / grid2.stride 0 % grid2.bound 0 = _
      rw [show grid2.stride 0 = 1 from by decide, show grid2.bound 0 = 49 from rfl, Nat.div_one]
      exact Nat.mod_eq_of_lt hN
    rw [h0, BitVec.toNat_ofNat]
    exact Nat.mod_eq_of_lt (by omega)
  | ⟨1, _⟩ => rfl

theorem flush2_1 (t : Fin cfg2.N) : (cfg2.win 1).flush t = true := by
  have hN : t.val < 49 := lt_of_lt_of_eq t.isLt N_2
  have hG : grid2.N = 49 := N_2
  show (win2_1.isOut && (decide (t.val + 1 = grid2.N) || decide (∃ h : t.val + 1 < grid2.N, win2_1.index ⟨t.val + 1, h⟩ ≠ win2_1.index t))) = true
  rw [show win2_1.isOut = true from rfl, Bool.true_and, Bool.or_eq_true, decide_eq_true_eq, decide_eq_true_eq]
  by_cases hl : t.val + 1 = grid2.N
  · exact .inl hl
  · refine .inr ⟨by omega, ?_⟩
    rw [index2_1, index2_1]
    intro he
    have := congrFun he 0
    simp only [Matrix.cons_val_zero] at this
    omega

theorem index3_0 (t : Fin cfg3.N) : win3_0.index t = ![t.val / 49] := by
  have hN : t.val < 29939 := lt_of_lt_of_eq t.isLt N_3
  funext a
  match a with
  | ⟨0, _⟩ =>
    show (BitVec.ofNat 32 ((grid3.coords t) 0).val).toNat = t.val / 49
    have h0 : ((grid3.coords t) 0).val = t.val / 49 := by
      show t.val / grid3.stride 0 % grid3.bound 0 = _
      rw [show grid3.stride 0 = 49 from by decide, show grid3.bound 0 = 611 from rfl]
      exact Nat.mod_eq_of_lt (by omega)
    rw [h0, BitVec.toNat_ofNat]
    exact Nat.mod_eq_of_lt (by omega)

theorem index3_1 (t : Fin cfg3.N) : win3_1.index t = ![t.val % 49, 0] := by
  have hN : t.val < 29939 := lt_of_lt_of_eq t.isLt N_3
  funext a
  match a with
  | ⟨0, _⟩ =>
    show (BitVec.ofNat 32 ((grid3.coords t) 1).val).toNat = t.val % 49
    have h1 : ((grid3.coords t) 1).val = t.val % 49 := by
      show t.val / grid3.stride 1 % grid3.bound 1 = _
      rw [show grid3.stride 1 = 1 from by decide, show grid3.bound 1 = 49 from rfl, Nat.div_one]
    rw [h1, BitVec.toNat_ofNat]
    exact Nat.mod_eq_of_lt (by omega)
  | ⟨1, _⟩ => rfl

theorem index3_2 (t : Fin cfg3.N) : win3_2.index t = ![t.val / 49, 0] := by
  have hN : t.val < 29939 := lt_of_lt_of_eq t.isLt N_3
  funext a
  match a with
  | ⟨0, _⟩ =>
    show (BitVec.ofNat 32 ((grid3.coords t) 0).val).toNat = t.val / 49
    have h0 : ((grid3.coords t) 0).val = t.val / 49 := by
      show t.val / grid3.stride 0 % grid3.bound 0 = _
      rw [show grid3.stride 0 = 49 from by decide, show grid3.bound 0 = 611 from rfl]
      exact Nat.mod_eq_of_lt (by omega)
    rw [h0, BitVec.toNat_ofNat]
    exact Nat.mod_eq_of_lt (by omega)
  | ⟨1, _⟩ => rfl

theorem flush3_2 (t : Fin cfg3.N) : (cfg3.win 2).flush t = true ↔ t.val % 49 = 48 := by
  have hN : t.val < 29939 := lt_of_lt_of_eq t.isLt N_3
  have hG : grid3.N = 29939 := N_3
  show (win3_2.isOut && (decide (t.val + 1 = grid3.N) || decide (∃ h : t.val + 1 < grid3.N, win3_2.index ⟨t.val + 1, h⟩ ≠ win3_2.index t))) = true ↔ _
  rw [show win3_2.isOut = true from rfl, Bool.true_and, Bool.or_eq_true, decide_eq_true_eq, decide_eq_true_eq]
  constructor
  · rintro (h | ⟨h, hne⟩)
    · omega
    · rw [index3_2, index3_2] at hne
      by_contra hc
      exact hne (by show ![(t.val + 1) / 49, 0] = ![t.val / 49, 0]; rw [show (t.val + 1) / 49 = t.val / 49 from by omega])
  · intro h
    by_cases hl : t.val + 1 = grid3.N
    · exact .inl hl
    · refine .inr ⟨by omega, ?_⟩
      rw [index3_2, index3_2]
      intro he
      have := congrFun he 0
      simp only [Matrix.cons_val_zero] at this
      omega

theorem index4_0 (t : Fin cfg4.N) : win4_0.index t = ![t.val % 611] := by
  have hN : t.val < 29939 := lt_of_lt_of_eq t.isLt N_4
  funext a
  match a with
  | ⟨0, _⟩ =>
    show (BitVec.ofNat 32 ((grid4.coords t) 1).val).toNat = t.val % 611
    have h1 : ((grid4.coords t) 1).val = t.val % 611 := by
      show t.val / grid4.stride 1 % grid4.bound 1 = _
      rw [show grid4.stride 1 = 1 from by decide, show grid4.bound 1 = 611 from rfl, Nat.div_one]
    rw [h1, BitVec.toNat_ofNat]
    exact Nat.mod_eq_of_lt (by omega)

theorem index4_1 (t : Fin cfg4.N) : win4_1.index t = ![t.val % 611, 0] := by
  have hN : t.val < 29939 := lt_of_lt_of_eq t.isLt N_4
  funext a
  match a with
  | ⟨0, _⟩ =>
    show (BitVec.ofNat 32 ((grid4.coords t) 1).val).toNat = t.val % 611
    have h1 : ((grid4.coords t) 1).val = t.val % 611 := by
      show t.val / grid4.stride 1 % grid4.bound 1 = _
      rw [show grid4.stride 1 = 1 from by decide, show grid4.bound 1 = 611 from rfl, Nat.div_one]
    rw [h1, BitVec.toNat_ofNat]
    exact Nat.mod_eq_of_lt (by omega)
  | ⟨1, _⟩ => rfl

theorem index4_2 (t : Fin cfg4.N) : win4_2.index t = ![t.val / 611, 0] := by
  have hN : t.val < 29939 := lt_of_lt_of_eq t.isLt N_4
  funext a
  match a with
  | ⟨0, _⟩ =>
    show (BitVec.ofNat 32 ((grid4.coords t) 0).val).toNat = t.val / 611
    have h0 : ((grid4.coords t) 0).val = t.val / 611 := by
      show t.val / grid4.stride 0 % grid4.bound 0 = _
      rw [show grid4.stride 0 = 611 from by decide, show grid4.bound 0 = 49 from rfl]
      exact Nat.mod_eq_of_lt (by omega)
    rw [h0, BitVec.toNat_ofNat]
    exact Nat.mod_eq_of_lt (by omega)
  | ⟨1, _⟩ => rfl

theorem flush4_2 (t : Fin cfg4.N) : (cfg4.win 2).flush t = true ↔ t.val % 611 = 610 := by
  have hN : t.val < 29939 := lt_of_lt_of_eq t.isLt N_4
  have hG : grid4.N = 29939 := N_4
  show (win4_2.isOut && (decide (t.val + 1 = grid4.N) || decide (∃ h : t.val + 1 < grid4.N, win4_2.index ⟨t.val + 1, h⟩ ≠ win4_2.index t))) = true ↔ _
  rw [show win4_2.isOut = true from rfl, Bool.true_and, Bool.or_eq_true, decide_eq_true_eq, decide_eq_true_eq]
  constructor
  · rintro (h | ⟨h, hne⟩)
    · omega
    · rw [index4_2, index4_2] at hne
      by_contra hc
      exact hne (by show ![(t.val + 1) / 611, 0] = ![t.val / 611, 0]; rw [show (t.val + 1) / 611 = t.val / 611 from by omega])
  · intro h
    by_cases hl : t.val + 1 = grid4.N
    · exact .inl hl
    · refine .inr ⟨by omega, ?_⟩
      rw [index4_2, index4_2]
      intro he
      have := congrFun he 0
      simp only [Matrix.cons_val_zero] at this
      omega

end Cert.KernelIdeal.Sched

end
-- ==== Proof.LayerMath.lean ====
import Mathlib.Data.EReal.Basic
import Mathlib.Algebra.BigOperators.Group.Finset.Basic
import Mathlib.Algebra.BigOperators.Group.Finset.Piecewise
import Mathlib.Algebra.BigOperators.Intervals
import Mathlib.Algebra.BigOperators.Ring.Finset

open scoped BigOperators

namespace Cert.LayerMath

theorem restart_sum {M : Type*} [AddCommMonoid M] (P : ℕ) (hP : 0 < P) (a S : ℕ → M)
    (h0 : a 0 = 0 + S 0)
    (hs : ∀ n, a (n + 1) = (if (n + 1) % P = 0 then 0 else a n) + S (n + 1)) (n : ℕ) :
    a n = ∑ k ∈ Finset.range (n % P + 1), S (n - n % P + k) := by
  induction n with
  | zero => simp [h0]
  | succ n ih =>
    rw [hs n]
    have hr : n % P < P := Nat.mod_lt n hP
    have hle : n % P ≤ n := Nat.mod_le n P
    have h1 : (n + 1) % P = (n % P + 1) % P := (Nat.mod_add_mod n P 1).symm
    by_cases hz : (n + 1) % P = 0
    · simp [hz]
    · have hlt : n % P + 1 < P := by
        by_contra hcon
        have hP' : n % P + 1 = P := by omega
        rw [hP', Nat.mod_self] at h1
        exact hz h1
      have h2 : (n + 1) % P = n % P + 1 := by rw [h1, Nat.mod_eq_of_lt hlt]
      have h3 : n + 1 - (n % P + 1) = n - n % P := by omega
      have h4 : n - n % P + (n % P + 1) = n + 1 := by omega
      rw [if_neg hz, ih, h2, h3, Finset.sum_range_succ (n := n % P + 1), h4]

def runS {M : Type*} [AddCommMonoid M] (P : ℕ) (S : ℕ → M) : ℕ → M
  | 0 => 0 + S 0
  | n + 1 => (if (n + 1) % P = 0 then 0 else runS P S n) + S (n + 1)

/-- At the last step of a period the restarting sum is the period's whole sum. -/
theorem runS_line {M : Type*} [AddCommMonoid M] (P : ℕ) (hP : 0 < P) (S : ℕ → M) (j : ℕ) :
    runS P S (j * P + (P - 1)) = ∑ k ∈ Finset.range P, S (j * P + k) := by
  have h : (j * P + (P - 1)) % P = P - 1 := by
    rw [Nat.mul_comm, Nat.mul_add_mod, Nat.mod_eq_of_lt (Nat.sub_lt hP Nat.one_pos)]
  rw [restart_sum P hP (runS P S) S rfl (fun _ => rfl), h, Nat.add_sub_cancel, Nat.sub_add_cancel hP]

theorem sum_tiles {M : Type*} [AddCommMonoid M] (K T : ℕ) (g : ℕ → M) :
    ∑ k ∈ Finset.range K, ∑ j ∈ Finset.range T, g (k * T + j) = ∑ n ∈ Finset.range (K * T), g n := by
  induction K with
  | zero => simp
  | succ K ih =>
    rw [Finset.sum_range_succ, ih, add_one_mul, Finset.sum_range_add]

theorem onehot_pick (L : ℕ) (hL : L ≤ 2 ^ 32) (w : BitVec 32) (f : ℕ → EReal) :
    ∑ n ∈ Finset.range L, (if w = BitVec.ofNat 32 n then (1 : EReal) else 0) * f n
      = if w.toNat < L then f w.toNat else 0 := by
  have key : ∀ n ∈ Finset.range L,
      (if w = BitVec.ofNat 32 n then (1 : EReal) else 0) * f n = if n = w.toNat then f n else 0 := by
    intro n hn
    have hn' : n < 2 ^ 32 := lt_of_lt_of_le (Finset.mem_range.mp hn) hL
    by_cases h : w = BitVec.ofNat 32 n
    · have hw : n = w.toNat := by
        rw [h, BitVec.toNat_ofNat, Nat.mod_eq_of_lt hn']
      rw [if_pos h, if_pos hw, one_mul]
    · have hw : ¬ n = w.toNat := by
        intro hc
        apply h
        apply BitVec.eq_of_toNat_eq
        rw [BitVec.toNat_ofNat, Nat.mod_eq_of_lt hn', hc]
      rw [if_neg h, if_neg hw, zero_mul]
  rw [Finset.sum_congr rfl key, Finset.sum_ite_eq']
  simp only [Finset.mem_range]

theorem layer (E Ep N Np : ℕ) (hE : E ≤ Ep) (hN : N ≤ Np) (hNp : Np < 2 ^ 31)
    (src dst : ℕ → BitVec 32) (table : ℕ → EReal)
    (hsrc : ∀ e, e < E → 0 ≤ (src e).toInt ∧ (src e).toInt < (N : ℤ))
    (hpad : ∀ e, E ≤ e → e < Ep → src e = BitVec.allOnes 32 ∧ dst e = BitVec.allOnes 32)
    (v : ℕ) (hv : v < N) :
    ∑ e ∈ Finset.range Ep, (if BitVec.ofNat 32 v = dst e then (1 : EReal) else 0)
        * (∑ n ∈ Finset.range Np, (if src e = BitVec.ofNat 32 n then (1 : EReal) else 0) * table n)
      = ∑ e ∈ (Finset.range E).filter (fun e => (dst e).toInt = (v : ℤ)), table (src e).toNat := by
  have hNp32 : Np ≤ 2 ^ 32 := by omega
  have hv31 : v < 2 ^ 31 := by omega
  have inner : ∀ e,
      (∑ n ∈ Finset.range Np, (if src e = BitVec.ofNat 32 n then (1 : EReal) else 0) * table n)
        = if (src e).toNat < Np then table (src e).toNat else 0 :=
    fun e => onehot_pick Np hNp32 (src e) table
  simp only [inner]
  have hsub : Finset.range E ⊆ Finset.range Ep := fun x hx =>
    Finset.mem_range.mpr (lt_of_lt_of_le (Finset.mem_range.mp hx) hE)
  rw [← Finset.sum_subset hsub, Finset.sum_filter]
  ·
    apply Finset.sum_congr rfl
    intro e he
    have he' := Finset.mem_range.mp he
    obtain ⟨hs0, hs1⟩ := hsrc e he'
    have hlt : (src e).toNat < Np := by
      have hb := (src e).isLt
      rw [BitVec.toInt_eq_toNat_cond] at hs0 hs1
      split_ifs at hs0 hs1 <;> omega
    rw [if_pos hlt]
    by_cases hd : BitVec.ofNat 32 v = dst e
    · have hi : (dst e).toInt = (v : ℤ) := by
        rw [← hd, BitVec.toInt_eq_toNat_cond, BitVec.toNat_ofNat, Nat.mod_eq_of_lt (by omega)]
        rw [if_pos (by omega)]
      rw [if_pos hd, if_pos hi, one_mul]
    · have hi : ¬ (dst e).toInt = (v : ℤ) := by
        intro hc
        apply hd
        apply BitVec.eq_of_toNat_eq
        rw [BitVec.toNat_ofNat, Nat.mod_eq_of_lt (by omega)]
        have hb := (dst e).isLt
        rw [BitVec.toInt_eq_toNat_cond] at hc
        split_ifs at hc <;> omega
      rw [if_neg hd, if_neg hi, zero_mul]
  ·
    intro e he hne
    have he1 := Finset.mem_range.mp he
    have he2 : E ≤ e := by
      by_contra hcon
      exact hne (Finset.mem_range.mpr (by omega))
    obtain ⟨_, hd⟩ := hpad e he2 he1
    have hno : ¬ BitVec.ofNat 32 v = dst e := by
      rw [hd]
      intro hc
      have hn := congrArg BitVec.toNat hc
      rw [BitVec.toNat_ofNat, Nat.mod_eq_of_lt (by omega), BitVec.toNat_allOnes] at hn
      omega
    rw [if_neg hno, zero_mul]

end Cert.LayerMath
-- ==== Proof.KernelIdeal.MsgVal.lean ====
import proofs.«401808_j32040456028632_1_alg».proof.Proof.KernelIdeal.MsgBody
import proofs.«401808_j32040456028632_1_alg».proof.Proof.KernelIdeal.GatherMath
import proofs.«401808_j32040456028632_1_alg».proof.Proof.KernelIdeal.Sched
import proofs.«401808_j32040456028632_1_alg».proof.Proof.LayerMath
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Mathlib.Algebra.BigOperators.Fin

set_option maxRecDepth 16384

noncomputable section

open scoped BigOperators

namespace Cert.KernelIdeal.Msg

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Gather

variable (V : (c : Dev nD) → (b : Ref sig .tc) → Buf (Elt Ideal) ((c : Thread nD τ).loc b))

def srcAt (c : Dev nD) (e : ℕ) : BitVec 32 :=
  if h : e < 1251328 then (V c main_v5 : IVec S1251328 32) (ix1 ⟨e, h⟩) else 0

def tabAt (c : Dev nD) (d : Fin 64) (n : ℕ) : EReal :=
  if h : n < 100352 then (V c main_v9 : FVec Ideal S100352x64 .bf16) (ix2 ⟨n, h⟩ d) else 0

abbrev srcBlk (c : Dev nD) (t : Fin cfg0.N) : Vec Ideal S2048 .i32 := iblk V c 0 t

abbrev tabBlk (c : Dev nD) (t : Fin cfg0.N) : Vec Ideal S2048x64 .bf16 := iblk V c 1 t

theorem srcBlk_apply (c : Dev nD) (t : Fin cfg0.N) (r : Fin 2048) :
    srcBlk V c t (ix1 r) = srcAt V c (2048 * (t.val / 49) + r.val) := by
  have hN : cfg0.N = 29939 := N_0
  have ht := t.isLt
  have hlt : 2048 * (t.val / 49) + r.val < 1251328 := by omega
  have e0 : win0_0.index t (0 : Fin 1) = t.val / 49 := by rw [Sched.index0_0]; rfl
  unfold srcAt
  rw [dif_pos hlt]
  show iblk V c 0 t (ix1 r) = _
  unfold iblk
  rw [View.read_apply]
  show V c main_v5 _ = V c main_v5 _
  refine congrArg (V c main_v5) (funext fun a => Fin.ext ?_)
  match a with
  | ⟨0, _⟩ => show win0_0.index t (0 : Fin 1) * 2048 + 1 * r.val = 2048 * (t.val / 49) + r.val; rw [e0]; omega

theorem tabBlk_apply (c : Dev nD) (t : Fin cfg0.N) (j : Fin 2048) (d : Fin 64) :
    tabBlk V c t (ix2 j d) = tabAt V c d (2048 * (t.val % 49) + j.val) := by
  have hlt : 2048 * (t.val % 49) + j.val < 100352 := by omega
  have e1 : win0_1.index t (0 : Fin 2) = t.val % 49 := by rw [Sched.index0_1]; rfl
  have e2 : win0_1.index t (1 : Fin 2) = 0 := by rw [Sched.index0_1]; rfl
  unfold tabAt
  rw [dif_pos hlt]
  show iblk V c 1 t (ix2 j d) = _
  unfold iblk
  rw [View.read_apply]
  show V c main_v9 _ = V c main_v9 _
  refine congrArg (V c main_v9) (funext fun a => Fin.ext ?_)
  match a with
  | ⟨0, _⟩ => show win0_1.index t (0 : Fin 2) * 2048 + 1 * j.val = 2048 * (t.val % 49) + j.val; rw [e1]; omega
  | ⟨1, _⟩ => show win0_1.index t (1 : Fin 2) * 64 + 1 * d.val = d.val; rw [e2]; omega

def tileSum (c : Dev nD) (r : Fin 2048) (d : Fin 64) (n : ℕ) : EReal :=
  if h : n < cfg0.N then
    ∑ j : Fin 2048, hot ((grid0.coords ⟨n, h⟩) 1).val (srcBlk V c ⟨n, h⟩ (ix1 r)) j * tabBlk V c ⟨n, h⟩ (ix2 j d)
  else 0

theorem sum_inv (c : Dev nD) (r : Fin 2048) (d : Fin 64) :
    ∀ (n : ℕ) (hn : n < cfg0.N), sumAt V c n hn (ix2 r d) = Cert.LayerMath.runS 49 (tileSum V c r d) n := by
  intro n
  induction n with
  | zero =>
    intro hn
    show acc _ _ _ _ (ix2 r d) = _
    unfold acc
    rw [if_pos ((restart_iff ⟨0, hn⟩).mpr (Nat.zero_mod _))]
    refine (pay2_apply (grid0.coords ⟨0, hn⟩) (srcBlk V c ⟨0, hn⟩) (k0_pay1 (F := Ideal)) (tabBlk V c ⟨0, hn⟩) r d).trans ?_
    rw [pay1_apply]
    show 0 + _ = 0 + tileSum V c r d 0
    unfold tileSum
    rw [dif_pos hn]
  | succ n ih =>
    intro hn
    show acc _ _ _ (sumAt V c n (Nat.lt_of_succ_lt hn)) (ix2 r d)
      = (if (n + 1) % 49 = 0 then 0 else Cert.LayerMath.runS 49 (tileSum V c r d) n) + tileSum V c r d (n + 1)
    unfold acc
    by_cases h0 : (n + 1) % 49 = 0
    · rw [if_pos ((restart_iff ⟨n + 1, hn⟩).mpr h0), if_pos h0]
      refine (pay2_apply (grid0.coords ⟨n + 1, hn⟩) (srcBlk V c ⟨n + 1, hn⟩) (k0_pay1 (F := Ideal)) (tabBlk V c ⟨n + 1, hn⟩) r d).trans ?_
      rw [pay1_apply]
      unfold tileSum
      rw [dif_pos hn]
    · rw [if_neg fun h => h0 ((restart_iff ⟨n + 1, hn⟩).mp h), if_neg h0]
      refine (pay2_apply (grid0.coords ⟨n + 1, hn⟩) (srcBlk V c ⟨n + 1, hn⟩) (sumAt V c n (Nat.lt_of_succ_lt hn)) (tabBlk V c ⟨n + 1, hn⟩) r d).trans ?_
      rw [ih (Nat.lt_of_succ_lt hn)]
      unfold tileSum
      rw [dif_pos hn]

theorem ofNat_tile (k j : ℕ) : BitVec.ofNat 32 (k * 2048 + j) = BitVec.ofNat 32 k * 2048#32 + BitVec.ofNat 32 j := by
  rw [BitVec.ofNat_add, BitVec.ofNat_mul]

theorem tileSum_eq (c : Dev nD) (r : Fin 2048) (d : Fin 64) (p : ℕ) (hp : p < cfg0.N) :
    tileSum V c r d p = ∑ j : Fin 2048,
      (if srcAt V c (2048 * (p / 49) + r.val) = BitVec.ofNat 32 (p % 49) * 2048#32 + BitVec.ofNat 32 j.val then (1 : EReal) else 0)
        * tabAt V c d (2048 * (p % 49) + j.val) := by
  unfold tileSum
  rw [dif_pos hp]
  have e5 : ((grid0.coords ⟨p, hp⟩) 1).val = p % 49 := coord_snd ⟨p, hp⟩
  refine Finset.sum_congr rfl fun j _ => ?_
  rw [srcBlk_apply V c ⟨p, hp⟩ r, tabBlk_apply V c ⟨p, hp⟩ j d, e5]
  rfl

theorem join_tiles (w : BitVec 32) (tab : ℕ → EReal) :
    ∑ k ∈ Finset.range 49, ∑ j : Fin 2048,
        (if w = BitVec.ofNat 32 k * 2048#32 + BitVec.ofNat 32 j.val then (1 : EReal) else 0) * tab (2048 * k + j.val)
      = ∑ n ∈ Finset.range 100352, (if w = BitVec.ofNat 32 n then (1 : EReal) else 0) * tab n := by
  rw [show (100352 : ℕ) = 49 * 2048 from rfl,
    ← Cert.LayerMath.sum_tiles 49 2048 (fun n => (if w = BitVec.ofNat 32 n then (1 : EReal) else 0) * tab n)]
  refine Finset.sum_congr rfl fun k _ => ?_
  rw [Fin.sum_univ_eq_sum_range (fun j => (if w = BitVec.ofNat 32 k * 2048#32 + BitVec.ofNat 32 j then (1 : EReal) else 0) * tab (2048 * k + j)) 2048]
  refine Finset.sum_congr rfl fun j _ => ?_
  rw [ofNat_tile, Nat.mul_comm 2048 k]

theorem acc_last (c : Dev nD) (t : Fin cfg0.N) (h48 : t.val % 49 = 48) (r : Fin 2048) (d : Fin 64) :
    sumAt V c t.val t.isLt (ix2 r d)
      = ∑ n ∈ Finset.range 100352,
          (if srcAt V c (2048 * (t.val / 49) + r.val) = BitVec.ofNat 32 n then (1 : EReal) else 0) * tabAt V c d n := by
  have hN : cfg0.N = 29939 := N_0
  have ht := t.isLt
  rw [sum_inv V c r d t.val t.isLt]
  have e : t.val = t.val / 49 * 49 + (49 - 1) := by omega
  rw [e, Cert.LayerMath.runS_line 49 (by decide), ← join_tiles]
  refine Finset.sum_congr rfl fun k hk => ?_
  have hk' : k < 49 := Finset.mem_range.mp hk
  have hp : t.val / 49 * 49 + k < cfg0.N := by omega
  rw [tileSum_eq V c r d _ hp, show (t.val / 49 * 49 + k) / 49 = t.val / 49 from by omega,
    show (t.val / 49 * 49 + k) % 49 = k from by omega, show (t.val / 49 * 49 + (49 - 1)) / 49 = t.val / 49 from by omega]

def msgArr (c : Dev nD) : FVec Ideal S1251328x64 .bf16 := fun y =>
  ∑ n ∈ Finset.range 100352, (if srcAt V c (y 0).val = BitVec.ofNat 32 n then (1 : EReal) else 0) * tabAt V c (y 1) n

theorem read_out_blk (G : FVec Ideal S1251328x64 .bf16) (t : Fin cfg0.N) (r : Fin 2048) (d : Fin 64)
    (hlt : 2048 * (t.val / 49) + r.val < 1251328) :
    ((cfg0.win 2).blk t).view.read (Elt Ideal) G (ix2 r d) = G (ix2 ⟨2048 * (t.val / 49) + r.val, hlt⟩ d) := by
  have e3 : win0_2.index t (0 : Fin 2) = t.val / 49 := by rw [Sched.index0_2]; rfl
  have e4 : win0_2.index t (1 : Fin 2) = 0 := by rw [Sched.index0_2]; rfl
  rw [View.read_apply]
  show G _ = G _
  refine congrArg G (funext fun a => Fin.ext ?_)
  match a with
  | ⟨0, _⟩ => show win0_2.index t (0 : Fin 2) * 2048 + 1 * r.val = 2048 * (t.val / 49) + r.val; rw [e3]; omega
  | ⟨1, _⟩ => show win0_2.index t (1 : Fin 2) * 64 + 1 * d.val = d.val; rw [e4]; omega

theorem flushed_eq (c : Dev nD) (t : Fin cfg0.N) (hf : (cfg0.win 2).flush t = true) :
    (dat V c).flushed 2 t = ((cfg0.win 2).blk t).view.read (Elt Ideal) (msgArr V c) := by
  have h48 : t.val % 49 = 48 := (Sched.flush0_2 t).mp hf
  have hN : cfg0.N = 29939 := N_0
  have ht := t.isLt
  have e3 : win0_2.index t (0 : Fin 2) = t.val / 49 := by rw [Sched.index0_2]; rfl
  have e4 : win0_2.index t (1 : Fin 2) = 0 := by rw [Sched.index0_2]; rfl
  show (cfg0.win 2).cut (grid0.coords t) ((dat V c).after 2 t) = _
  rw [after_2]
  funext y
  obtain ⟨r, d, rfl⟩ : ∃ (r : Fin 2048) (d : Fin 64), y = ix2 r d := ⟨y 0, y 1, eq_ix2 y⟩
  have hlt : 2048 * (t.val / 49) + r.val < 1251328 := by omega
  refine Eq.trans ?_ (read_out_blk (msgArr V c) t r d hlt).symm
  exact acc_last V c t h48 r d

theorem mem_blk (t : Fin cfg0.N) (i : S1251328x64.Idx) :
    i ∈ ((cfg0.win 2).blk t).view.set ↔ ∀ a : Fin 2, win0_2.index t a * S2048x64.size a ≤ (i a).val
      ∧ (i a).val < win0_2.index t a * S2048x64.size a + S2048x64.size a := by
  show i ∈ ((View.whole main_v10).slice (win0_2.rect t)).set ↔ _
  rw [View.set_slice_whole, Rect.mem_set_unit]
  exact Iff.rfl

theorem covered (i : S1251328x64.Idx) :
    ∃ t : Fin cfg0.N, (cfg0.win 2).flush t = true ∧ i ∈ ((cfg0.win 2).blk t).view.set := by
  have hN : cfg0.N = 29939 := N_0
  have hi0 : (i 0).val < 1251328 := (i 0).isLt
  have hi1 : (i 1).val < 64 := (i 1).isLt
  have htl : 49 * ((i 0).val / 2048) + 48 < cfg0.N := by omega
  have e3 : win0_2.index ⟨49 * ((i 0).val / 2048) + 48, htl⟩ (0 : Fin 2) = (49 * ((i 0).val / 2048) + 48) / 49 := by
    rw [Sched.index0_2]; rfl
  have e4 : win0_2.index ⟨49 * ((i 0).val / 2048) + 48, htl⟩ (1 : Fin 2) = 0 := by rw [Sched.index0_2]; rfl
  refine ⟨⟨49 * ((i 0).val / 2048) + 48, htl⟩, (Sched.flush0_2 _).mpr (by show (49 * ((i 0).val / 2048) + 48) % 49 = 48; omega), ?_⟩
  rw [mem_blk]
  intro a
  match a with
  | ⟨0, _⟩ =>
    show win0_2.index ⟨49 * ((i 0).val / 2048) + 48, htl⟩ (0 : Fin 2) * 2048 ≤ (i 0).val
      ∧ (i 0).val < win0_2.index ⟨49 * ((i 0).val / 2048) + 48, htl⟩ (0 : Fin 2) * 2048 + 2048
    rw [e3]; omega
  | ⟨1, _⟩ =>
    show win0_2.index ⟨49 * ((i 0).val / 2048) + 48, htl⟩ (1 : Fin 2) * 64 ≤ (i 1).val
      ∧ (i 1).val < win0_2.index ⟨49 * ((i 0).val / 2048) + 48, htl⟩ (1 : Fin 2) * 64 + 64
    rw [e4]; omega

/-- Row `e`, column `d` of the messages is the table row that source word `e` names: a one-hot sum over the table's rows. -/
theorem final_msg (c : Dev nD) (e : Fin 1251328) (d : Fin 64) :
    ((dat (F := Ideal) V c).arrAt 2 cfg0.N : FVec Ideal S1251328x64 .bf16) (ix2 e d)
      = ∑ n ∈ Finset.range 100352, (if srcAt V c e.val = BitVec.ofNat 32 n then (1 : EReal) else 0) * tabAt V c d n := by
  have h := (dat (F := Ideal) V c).arrAt_eq_of_cover 2 (msgArr V c) (flushed_eq V c) covered
  exact congrFun h (ix2 e d)

end Cert.KernelIdeal.Msg

end
-- ==== Proof.KernelIdeal.ScatterMath.lean ====
import proofs.«401808_j32040456028632_1_alg».proof.Proof.KernelIdeal.GatherMath
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option maxRecDepth 16384

noncomputable section

open scoped BigOperators

namespace Cert.KernelIdeal.Scatter

open Idealize.ShloMosaic Idealize.ShloMosaic.TcCoe Idealize.ShloMosaic.ValueIdx Idealize.ShloMosaic.Tactic
open Idealize.SL Idealize.SL.Sem
open Idealize.ShloMosaic.Pipeline (Dat)
open Cert.KernelIdeal Cert.KernelIdeal.Gen Cert.KernelIdeal.Gather

theorem hot_at (i : grid1.Coords) (x0 : IVec S2048 32) (r k : Fin 2048) :
    (truncf (F := Ideal) FTy.bf16
            (sitofp FTy.f32
              (extui 32
                (cmpi CmpIPredicate.eq
                  (broadcastTo S2048x2048
                    (addi (broadcast S2048x1 (Scalar.muli (BitVec.ofNat 32 (i 0).val) 2048#32))
                      (iota Kind.tc S2048x1 32 [0] iota_S2048x1_d0_w32))
                    broadcasts_S2048x1_S2048x2048)
                  (broadcastTo S2048x2048
                    (shapeCast S1x2048 (shapeCast S2048 x0 shapeCasts_S2048_S2048) shapeCasts_S2048_S1x2048)
                    broadcasts_S1x2048_S2048x2048))
                natLt_1_32))
            bitsLt_bf16_f32) (ix2 r k)
      = if BitVec.ofNat 32 (i 0).val * 2048#32 + BitVec.ofNat 32 r.val = x0 (ix1 k) then (1 : EReal) else 0 := by
  rw [truncf_apply, sitofp_apply, extui_apply]
  show ((((IntOp.cmpi .eq _ _).setWidth 32).toInt : ℝ) : EReal) = _
  rw [sitofp_cmpi_eq, broadcastTo_a1_ab_apply, broadcastTo_1b_ab_apply, shapeCast_a_1a_apply, shapeCast_self]
  show (if IntOp.addi (Scalar.muli (BitVec.ofNat 32 (i 0).val) 2048#32) (iota Kind.tc S2048x1 32 [0] iota_S2048x1_d0_w32 (ix2 r (0 : Fin 1))) = x0 (ix1 k) then (1 : EReal) else 0) = _
  rw [iota_single_apply]
  rfl

theorem pay2_apply (i : grid1.Coords) (x0 : Vec Ideal S2048 .i32) (s : Vec Ideal S2048x64 .f32) (x1 : Vec Ideal S2048x64 .bf16)
    (r : Fin 2048) (d : Fin 64) :
    k1_pay2 (F := Ideal) i x0 s x1 (ix2 r d)
      = s (ix2 r d) + ∑ k : Fin 2048, (if BitVec.ofNat 32 (i 0).val * 2048#32 + BitVec.ofNat 32 r.val = x0 (ix1 k) then (1 : EReal) else 0) * x1 (ix2 k d) := by
  unfold k1_pay2
  dsimp only
  rw [shapeCast_self, addf_apply]
  refine congrArg (s (ix2 r d) + ·) ((tile_matmul_apply _ _ r d).trans (Finset.sum_congr rfl fun k _ => ?_))
  rw [hot_at, shapeCast_self]

end Cert.KernelIdeal.Scatter

end
-- ==== Proof.KernelIdeal.AggVal.lean ====
import proofs.«401808_j32040456028632_1_alg».proof.Proof.KernelIdeal.AggBody
import proofs.«401808_j32040456028632_1_alg».proof.Proof.KernelIdeal.AggBody
import proofs.«401808_j32040456028632_1_alg».proof.Proof.KernelIdeal.ScatterMath
import proofs.«401808_j32040456028632_1_alg».proof.Proof.KernelIdeal.Sched
import proofs.«401808_j32040456028632_1_alg».proof.Proof.LayerMath
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option maxRecDepth 16384

noncomputable section

open scoped BigOperators

namespace Cert.KernelIdeal.Agg

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Scatter

variable (V : (c : Dev nD) → (b : Ref sig .tc) → Buf (Elt Ideal) ((c : Thread nD τ).loc b))

def dstAt (c : Dev nD) (e : ℕ) : BitVec 32 :=
  if h : e < 1251328 then (V c main_v6 : IVec S1251328 32) (ix1 ⟨e, h⟩) else 0

def msgAt (c : Dev nD) (d : Fin 64) (e : ℕ) : EReal :=
  if h : e < 1251328 then (V c main_v10 : FVec Ideal S1251328x64 .bf16) (ix2 ⟨e, h⟩ d) else 0

abbrev dblk (c : Dev nD) (t : Fin cfg1.N) : Vec Ideal S2048 .i32 := iblk V c 0 t

abbrev mblk (c : Dev nD) (t : Fin cfg1.N) : Vec Ideal S2048x64 .bf16 := iblk V c 1 t

theorem coords0 (t : Fin cfg1.N) : (grid1.coords t 0).val = t.val / 611 := by
  have hN : t.val < 29939 := lt_of_lt_of_eq t.isLt N_1
  show t.val / grid1.stride 0 % grid1.bound 0 = _
  rw [show grid1.stride 0 = 611 from by decide, show grid1.bound 0 = 49 from rfl]
  exact Nat.mod_eq_of_lt (by omega)

theorem mblk_apply (c : Dev nD) (t : Fin cfg1.N) (k : Fin 2048) (d : Fin 64) (e : Fin 1251328)
    (he : e.val = (t.val % 611) * 2048 + k.val) :
    mblk V c t (ix2 k d) = (V c main_v10 : FVec Ideal S1251328x64 .bf16) (ix2 e d) := by
  unfold mblk iblk
  rw [View.read_apply]
  show V c main_v10 _ = V c main_v10 _
  congr 1
  funext a
  apply Fin.ext
  match a with
  | ⟨0, _⟩ =>
    show win1_1.index t 0 * 2048 + 1 * k.val = e.val
    rw [Sched.index1_1, he]; show (t.val % 611) * 2048 + 1 * k.val = _; omega
  | ⟨1, _⟩ =>
    show win1_1.index t 1 * 64 + 1 * d.val = d.val
    rw [Sched.index1_1]; show 0 * 64 + 1 * d.val = _; omega

theorem dblk_apply (c : Dev nD) (t : Fin cfg1.N) (k : Fin 2048) (e : Fin 1251328)
    (he : e.val = (t.val % 611) * 2048 + k.val) :
    dblk V c t (ix1 k) = (V c main_v6 : IVec S1251328 32) (ix1 e) := by
  unfold dblk iblk
  rw [View.read_apply]
  show V c main_v6 _ = V c main_v6 _
  congr 1
  funext a
  apply Fin.ext
  match a with
  | ⟨0, _⟩ =>
    show win1_0.index t 0 * 2048 + 1 * k.val = e.val
    rw [Sched.index1_0, he]; show (t.val % 611) * 2048 + 1 * k.val = _; omega

def term (c : Dev nD) (v : ℕ) (d : Fin 64) (e : ℕ) : EReal :=
  (if BitVec.ofNat 32 v = dstAt V c e then (1 : EReal) else 0) * msgAt V c d e

def tileS (c : Dev nD) (r : Fin 2048) (d : Fin 64) (n : ℕ) : EReal :=
  if h : n < cfg1.N then
    ∑ k : Fin 2048, (if BitVec.ofNat 32 (grid1.coords ⟨n, h⟩ 0).val * 2048#32 + BitVec.ofNat 32 r.val = dblk V c ⟨n, h⟩ (ix1 k)
      then (1 : EReal) else 0) * mblk V c ⟨n, h⟩ (ix2 k d)
  else 0

theorem node_word (j r : ℕ) : BitVec.ofNat 32 j * 2048#32 + BitVec.ofNat 32 r = BitVec.ofNat 32 (j * 2048 + r) := by
  rw [BitVec.ofNat_add, BitVec.ofNat_mul]

theorem tileS_eq (c : Dev nD) (r : Fin 2048) (d : Fin 64) (n : ℕ) (hn : n < cfg1.N) :
    tileS V c r d n = ∑ k : Fin 2048, term V c ((n / 611) * 2048 + r.val) d ((n % 611) * 2048 + k.val) := by
  have hN : n < 29939 := lt_of_lt_of_eq hn N_1
  unfold tileS
  rw [dif_pos hn]
  refine Finset.sum_congr rfl fun k _ => ?_
  have hk : (n % 611) * 2048 + k.val < 1251328 := by have := k.isLt; omega
  rw [dblk_apply V c ⟨n, hn⟩ k ⟨(n % 611) * 2048 + k.val, hk⟩ rfl, mblk_apply V c ⟨n, hn⟩ k d ⟨(n % 611) * 2048 + k.val, hk⟩ rfl,
    coords0, node_word]
  unfold term dstAt msgAt
  rw [dif_pos hk, dif_pos hk]

theorem line_sum (g : ℕ → EReal) :
    ∑ k ∈ Finset.range 611, ∑ x : Fin 2048, g (k * 2048 + x.val) = ∑ e ∈ Finset.range 1251328, g e := by
  have h : ∀ k, ∑ x : Fin 2048, g (k * 2048 + x.val) = ∑ x ∈ Finset.range 2048, g (k * 2048 + x) :=
    fun k => Fin.sum_univ_eq_sum_range (fun x => g (k * 2048 + x)) 2048
  simp only [h]
  exact Cert.LayerMath.sum_tiles 611 2048 g

theorem pay1_apply (r : Fin 2048) (d : Fin 64) : k1_pay1 (F := Ideal) (ix2 r d) = 0 := by
  unfold k1_pay1
  rw [shapeCast_self]
  exact Ideal.ofBits_zero_f32

theorem sum_inv (c : Dev nD) (r : Fin 2048) (d : Fin 64) :
    ∀ (n : ℕ) (hn : n < cfg1.N), sumAt V c n hn (ix2 r d) = Cert.LayerMath.runS 611 (tileS V c r d) n := by
  intro n
  induction n with
  | zero =>
    intro hn
    show acc _ _ _ _ (ix2 r d) = _
    unfold acc
    rw [if_pos ((restart_iff ⟨0, hn⟩).mpr (Nat.zero_mod _))]
    refine (pay2_apply (grid1.coords ⟨0, hn⟩) (dblk V c ⟨0, hn⟩) (k1_pay1 (F := Ideal)) (mblk V c ⟨0, hn⟩) r d).trans ?_
    rw [pay1_apply]
    show 0 + _ = 0 + tileS V c r d 0
    unfold tileS
    rw [dif_pos hn]
  | succ n ih =>
    intro hn
    show acc _ _ _ (sumAt V c n (Nat.lt_of_succ_lt hn)) (ix2 r d)
      = (if (n + 1) % 611 = 0 then 0 else Cert.LayerMath.runS 611 (tileS V c r d) n) + tileS V c r d (n + 1)
    unfold acc
    by_cases h0 : (n + 1) % 611 = 0
    · rw [if_pos ((restart_iff ⟨n + 1, hn⟩).mpr h0), if_pos h0]
      refine (pay2_apply (grid1.coords ⟨n + 1, hn⟩) (dblk V c ⟨n + 1, hn⟩) (k1_pay1 (F := Ideal)) (mblk V c ⟨n + 1, hn⟩) r d).trans ?_
      rw [pay1_apply]
      unfold tileS
      rw [dif_pos hn]
    · rw [if_neg fun h => h0 ((restart_iff ⟨n + 1, hn⟩).mp h), if_neg h0]
      refine (pay2_apply (grid1.coords ⟨n + 1, hn⟩) (dblk V c ⟨n + 1, hn⟩) (sumAt V c n (Nat.lt_of_succ_lt hn)) (mblk V c ⟨n + 1, hn⟩) r d).trans ?_
      rw [ih (Nat.lt_of_succ_lt hn)]
      unfold tileS
      rw [dif_pos hn]

def nodeSum (c : Dev nD) (v : ℕ) (d : Fin 64) : EReal := ∑ e ∈ Finset.range 1251328, term V c v d e

def G (c : Dev nD) : FVec Ideal S100352x64 .f32 := fun i => nodeSum V c (i 0).val ⟨(i 1).val, idx2_lt1 i⟩

theorem G_apply (c : Dev nD) (v : Fin 100352) (d : Fin 64) : G V c (ix2 v d) = nodeSum V c v.val d := rfl

theorem line_value (c : Dev nD) (t : Fin cfg1.N) (hf : t.val % 611 = 610) (r : Fin 2048) (d : Fin 64) :
    sumAt V c t.val t.isLt (ix2 r d) = nodeSum V c ((t.val / 611) * 2048 + r.val) d := by
  have hN : t.val < 29939 := lt_of_lt_of_eq t.isLt N_1
  rw [sum_inv V c r d t.val t.isLt]
  have ht : t.val = (t.val / 611) * 611 + (611 - 1) := by omega
  rw [ht, Cert.LayerMath.runS_line 611 (by decide)]
  have hq : ((t.val / 611) * 611 + (611 - 1)) / 611 = t.val / 611 := by omega
  rw [hq]
  unfold nodeSum
  rw [← line_sum]
  refine Finset.sum_congr rfl fun k hk => ?_
  have hk' : k < 611 := Finset.mem_range.mp hk
  have hlt : (t.val / 611) * 611 + k < cfg1.N := lt_of_lt_of_eq (by omega) N_1.symm
  rw [tileS_eq V c r d _ hlt]
  have e1 : ((t.val / 611) * 611 + k) / 611 = t.val / 611 := by omega
  have e2 : ((t.val / 611) * 611 + k) % 611 = k := by omega
  rw [e1, e2]

theorem read_out_blk (A : FVec Ideal S100352x64 .f32) (t : Fin cfg1.N) (r : Fin 2048) (d : Fin 64)
    (hlt : (t.val / 611) * 2048 + r.val < 100352) :
    ((cfg1.win 2).blk t).view.read (Elt Ideal) A (ix2 r d) = A (ix2 ⟨(t.val / 611) * 2048 + r.val, hlt⟩ d) := by
  have e3 : win1_2.index t (0 : Fin 2) = t.val / 611 := by rw [Sched.index1_2]; rfl
  have e4 : win1_2.index t (1 : Fin 2) = 0 := by rw [Sched.index1_2]; rfl
  rw [View.read_apply]
  show A _ = A _
  refine congrArg A (funext fun a => Fin.ext ?_)
  match a with
  | ⟨0, _⟩ => show win1_2.index t (0 : Fin 2) * 2048 + 1 * r.val = (t.val / 611) * 2048 + r.val; rw [e3]; omega
  | ⟨1, _⟩ => show win1_2.index t (1 : Fin 2) * 64 + 1 * d.val = d.val; rw [e4]; omega

theorem flushed_eq (c : Dev nD) (t : Fin cfg1.N) (hf : (cfg1.win 2).flush t = true) :
    (dat (F := Ideal) V c).flushed 2 t = ((cfg1.win 2).blk t).view.read (Elt Ideal) (G V c) := by
  have h610 : t.val % 611 = 610 := (Sched.flush1_2 t).mp hf
  have hN : t.val < 29939 := lt_of_lt_of_eq t.isLt N_1
  show (cfg1.win 2).cut (grid1.coords t) ((dat (F := Ideal) V c).after 2 t) = _
  rw [after_2]
  funext y
  obtain ⟨r, d, rfl⟩ : ∃ (r : Fin 2048) (d : Fin 64), y = ix2 r d := ⟨y 0, y 1, eq_ix2 y⟩
  have hlt : (t.val / 611) * 2048 + r.val < 100352 := by have := r.isLt; omega
  refine Eq.trans ?_ (read_out_blk (G V c) t r d hlt).symm
  exact (line_value V c t h610 r d).trans (G_apply V c ⟨(t.val / 611) * 2048 + r.val, hlt⟩ d).symm

theorem mem_blk (t : Fin cfg1.N) (i : S100352x64.Idx) :
    i ∈ ((cfg1.win 2).blk t).view.set ↔ ∀ a : Fin 2, win1_2.index t a * S2048x64.size a ≤ (i a).val
      ∧ (i a).val < win1_2.index t a * S2048x64.size a + S2048x64.size a := by
  show i ∈ ((View.whole main_v11).slice (win1_2.rect t)).set ↔ _
  rw [View.set_slice_whole, Rect.mem_set_unit]
  exact Iff.rfl

theorem covered (i : S100352x64.Idx) :
    ∃ t : Fin cfg1.N, (cfg1.win 2).flush t = true ∧ i ∈ ((cfg1.win 2).blk t).view.set := by
  have hi0 : (i 0).val < 100352 := (i 0).isLt
  have hi1 : (i 1).val < 64 := (i 1).isLt
  have htl : ((i 0).val / 2048) * 611 + 610 < cfg1.N := lt_of_lt_of_eq (by omega) N_1.symm
  have e3 : win1_2.index ⟨((i 0).val / 2048) * 611 + 610, htl⟩ (0 : Fin 2) = (((i 0).val / 2048) * 611 + 610) / 611 := by
    rw [Sched.index1_2]; rfl
  have e4 : win1_2.index ⟨((i 0).val / 2048) * 611 + 610, htl⟩ (1 : Fin 2) = 0 := by rw [Sched.index1_2]; rfl
  refine ⟨⟨((i 0).val / 2048) * 611 + 610, htl⟩, (Sched.flush1_2 _).mpr (by show (((i 0).val / 2048) * 611 + 610) % 611 = 610; omega), ?_⟩
  rw [mem_blk]
  intro a
  match a with
  | ⟨0, _⟩ =>
    show win1_2.index ⟨((i 0).val / 2048) * 611 + 610, htl⟩ (0 : Fin 2) * 2048 ≤ (i 0).val
      ∧ (i 0).val < win1_2.index ⟨((i 0).val / 2048) * 611 + 610, htl⟩ (0 : Fin 2) * 2048 + 2048
    rw [e3]; omega
  | ⟨1, _⟩ =>
    show win1_2.index ⟨((i 0).val / 2048) * 611 + 610, htl⟩ (1 : Fin 2) * 64 ≤ (i 1).val
      ∧ (i 1).val < win1_2.index ⟨((i 0).val / 2048) * 611 + 610, htl⟩ (1 : Fin 2) * 64 + 64
    rw [e4]; omega

/-- Row `v`, column `d` of the aggregate is the sum of the messages whose destination word names `v`. -/
theorem final_agg (c : Dev nD) (v : Fin 100352) (d : Fin 64) :
    ((dat (F := Ideal) V c).arrAt 2 cfg1.N : FVec Ideal S100352x64 .f32) (ix2 v d)
      = ∑ e ∈ Finset.range 1251328, (if BitVec.ofNat 32 v.val = dstAt V c e then (1 : EReal) else 0) * msgAt V c d e := by
  have h := (dat (F := Ideal) V c).arrAt_eq_of_cover 2 (G V c) (flushed_eq V c) covered
  refine (congrFun h (ix2 v d)).trans ?_
  rw [G_apply]
  unfold nodeSum term
  rfl

end Cert.KernelIdeal.Agg

end
-- ==== Proof.KernelIdeal.ReluVal.lean ====
import proofs.«401808_j32040456028632_1_alg».proof.Proof.KernelIdeal.ReluBody
import proofs.«401808_j32040456028632_1_alg».proof.Proof.KernelIdeal.Sched
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option maxRecDepth 16384

noncomputable section

namespace Cert.KernelIdeal.Relu

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_off : (![0, 0] : Fin 2 → Nat) = fun _ => 0 := funext fun a => by fin_cases a <;> rfl

theorem pay_apply (x : Vec Ideal S2048x64 .f32) (r : Fin 2048) (d : Fin 64) :
    (k2_pay1 x : FVec Ideal S2048x64 .bf16) (ix2 r d) = max ((x : FVec Ideal S2048x64 .f32) (ix2 r d)) 0 := by
  unfold k2_pay1
  simp only [truncf_apply, maximumf_apply, broadcast_apply, shapeCast_self, Ideal.ofBits_def, Ideal.ofBits_zero_f32]

theorem pay_eq (x : Vec Ideal S2048x64 .f32) :
    (k2_pay1 x : FVec Ideal S2048x64 .bf16) = fun j => max ((x : FVec Ideal S2048x64 .f32) j) 0 := by
  funext j
  obtain ⟨r, d, rfl⟩ : ∃ (r : Fin 2048) (d : Fin 64), j = ix2 r d := ⟨j 0, j 1, eq_ix2 j⟩
  exact pay_apply x r d

def relu (c : Dev nD) : FVec Ideal S100352x64 .bf16 :=
  fun i => max ((V c main_v11 : FVec Ideal S100352x64 .f32) i) 0

theorem idx_facts (t : Fin cfg2.N) : win2_0.index t (0 : Fin 2) = t.val ∧ win2_0.index t (1 : Fin 2) = 0
    ∧ win2_1.index t (0 : Fin 2) = t.val ∧ win2_1.index t (1 : Fin 2) = 0 := by
  rw [Sched.index2_0, Sched.index2_1]
  exact ⟨rfl, rfl, rfl, rfl⟩

theorem emb_eq (t : Fin cfg2.N) (j : S2048x64.Idx) :
    (((cfg2.win 0).blk t).view.emb j : S100352x64.Idx) = ((cfg2.win 1).blk t).view.emb j := by
  obtain ⟨e0, e1, e2, e3⟩ := idx_facts t
  funext a; apply Fin.ext
  match a with
  | ⟨0, _⟩ => show win2_0.index t (0 : Fin 2) * 2048 + 1 * (j 0).val = win2_1.index t (0 : Fin 2) * 2048 + 1 * (j 0).val; omega
  | ⟨1, _⟩ => show win2_0.index t (1 : Fin 2) * 64 + 1 * (j 1).val = win2_1.index t (1 : Fin 2) * 64 + 1 * (j 1).val; omega

theorem flushed_eq (c : Dev nD) (t : Fin cfg2.N) :
    (dat (F := Ideal) V c).flushed 1 t = ((cfg2.win 1).blk t).view.read (Elt Ideal) (relu V c) := by
  show (cfg2.win 1).cut (grid2.coords t) ((dat (F := Ideal) V c).after 1 t) = _
  rw [after_1]
  unfold out
  rw [View.canon_unit_zero zero_off]
  simp only [View.ld_unit_zero (S := S2048x64) zero_off]
  rw [pay_eq]
  funext j
  show (max ((V c main_v11 : FVec Ideal S100352x64 .f32) (((cfg2.win 0).blk t).view.emb j)) 0 : EReal)
    = (max ((V c main_v11 : FVec Ideal S100352x64 .f32) (((cfg2.win 1).blk t).view.emb j)) 0 : EReal)
  rw [emb_eq t j]

theorem mem_blk (t : Fin cfg2.N) (i : S100352x64.Idx) :
    i ∈ ((cfg2.win 1).blk t).view.set ↔ ∀ a : Fin 2, win2_1.index t a * S2048x64.size a ≤ (i a).val ∧ (i a).val < win2_1.index t a * S2048x64.size a + S2048x64.size a := by
  show i ∈ ((View.whole main_v12).slice (win2_1.rect t)).set ↔ _
  rw [View.set_slice_whole, Rect.mem_set_unit]
  exact Iff.rfl

theorem cover (i : S100352x64.Idx) :
    ∃ t : Fin cfg2.N, (cfg2.win 1).flush t = true ∧ i ∈ ((cfg2.win 1).blk t).view.set := by
  have hi0 : (i 0).val < 100352 := (i 0).isLt
  have hi1 : (i 1).val < 64 := (i 1).isLt
  have ht : (i 0).val / 2048 < cfg2.N := by
    show (i 0).val / 2048 < grid2.N
    rw [N_2]; omega
  refine ⟨⟨(i 0).val / 2048, ht⟩, Sched.flush2_1 _, ?_⟩
  obtain ⟨e0, e1, e2, e3⟩ := idx_facts ⟨(i 0).val / 2048, ht⟩
  rw [mem_blk]
  intro a
  match a with
  | ⟨0, _⟩ =>
    show win2_1.index ⟨(i 0).val / 2048, ht⟩ (0 : Fin 2) * 2048 ≤ (i 0).val ∧ (i 0).val < win2_1.index ⟨(i 0).val / 2048, ht⟩ (0 : Fin 2) * 2048 + 2048
    rw [e2]
    show (i 0).val / 2048 * 2048 ≤ (i 0).val ∧ (i 0).val < (i 0).val / 2048 * 2048 + 2048
    omega
  | ⟨1, _⟩ =>
    show win2_1.index ⟨(i 0).val / 2048, ht⟩ (1 : Fin 2) * 64 ≤ (i 1).val ∧ (i 1).val < win2_1.index ⟨(i 0).val / 2048, ht⟩ (1 : Fin 2) * 64 + 64
    rw [e3]
    omega

theorem final_arr (c : Dev nD) : (dat (F := Ideal) V c).arrAt 1 cfg2.N = relu V c :=
  (dat (F := Ideal) V c).arrAt_eq_of_cover 1 (relu V c) (fun t _ => flushed_eq V c t) cover

theorem final_relu (c : Dev nD) (v : Fin 100352) (d : Fin 64) :
    ((dat (F := Ideal) V c).arrAt 1 cfg2.N : FVec Ideal S100352x64 .bf16) (ix2 v d)
      = (max ((V c main_v11 : FVec Ideal S100352x64 .f32) (ix2 v d)) 0 : EReal) :=
  congrFun (final_arr V c) (ix2 v d)

end Cert.KernelIdeal.Relu

end
-- ==== Proof.KernelIdeal.Msg2Val.lean ====
import proofs.«401808_j32040456028632_1_alg».proof.Proof.KernelIdeal.Msg2Body
import proofs.«401808_j32040456028632_1_alg».proof.Proof.KernelIdeal.GatherMath
import proofs.«401808_j32040456028632_1_alg».proof.Proof.KernelIdeal.Sched
import proofs.«401808_j32040456028632_1_alg».proof.Proof.LayerMath
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Mathlib.Algebra.BigOperators.Fin

set_option maxRecDepth 16384

noncomputable section

open scoped BigOperators

namespace Cert.KernelIdeal.Msg2

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Gather

variable (V : (c : Dev nD) → (b : Ref sig .tc) → Buf (Elt Ideal) ((c : Thread nD τ).loc b))

def srcAt (c : Dev nD) (e : ℕ) : BitVec 32 :=
  if h : e < 1251328 then (V c main_v5 : IVec S1251328 32) (ix1 ⟨e, h⟩) else 0

def tabAt (c : Dev nD) (d : Fin 64) (n : ℕ) : EReal :=
  if h : n < 100352 then (V c main_v12 : FVec Ideal S100352x64 .bf16) (ix2 ⟨n, h⟩ d) else 0

abbrev srcBlk (c : Dev nD) (t : Fin cfg3.N) : Vec Ideal S2048 .i32 := iblk V c 0 t

abbrev tabBlk (c : Dev nD) (t : Fin cfg3.N) : Vec Ideal S2048x64 .bf16 := iblk V c 1 t

theorem srcBlk_apply (c : Dev nD) (t : Fin cfg3.N) (r : Fin 2048) :
    srcBlk V c t (ix1 r) = srcAt V c (2048 * (t.val / 49) + r.val) := by
  have hN : cfg3.N = 29939 := N_3
  have ht := t.isLt
  have hlt : 2048 * (t.val / 49) + r.val < 1251328 := by omega
  have e0 : win3_0.index t (0 : Fin 1) = t.val / 49 := by rw [Sched.index3_0]; rfl
  unfold srcAt
  rw [dif_pos hlt]
  show iblk V c 0 t (ix1 r) = _
  unfold iblk
  rw [View.read_apply]
  show V c main_v5 _ = V c main_v5 _
  refine congrArg (V c main_v5) (funext fun a => Fin.ext ?_)
  match a with
  | ⟨0, _⟩ => show win3_0.index t (0 : Fin 1) * 2048 + 1 * r.val = 2048 * (t.val / 49) + r.val; rw [e0]; omega

theorem tabBlk_apply (c : Dev nD) (t : Fin cfg3.N) (j : Fin 2048) (d : Fin 64) :
    tabBlk V c t (ix2 j d) = tabAt V c d (2048 * (t.val % 49) + j.val) := by
  have hlt : 2048 * (t.val % 49) + j.val < 100352 := by omega
  have e1 : win3_1.index t (0 : Fin 2) = t.val % 49 := by rw [Sched.index3_1]; rfl
  have e2 : win3_1.index t (1 : Fin 2) = 0 := by rw [Sched.index3_1]; rfl
  unfold tabAt
  rw [dif_pos hlt]
  show iblk V c 1 t (ix2 j d) = _
  unfold iblk
  rw [View.read_apply]
  show V c main_v12 _ = V c main_v12 _
  refine congrArg (V c main_v12) (funext fun a => Fin.ext ?_)
  match a with
  | ⟨0, _⟩ => show win3_1.index t (0 : Fin 2) * 2048 + 1 * j.val = 2048 * (t.val % 49) + j.val; rw [e1]; omega
  | ⟨1, _⟩ => show win3_1.index t (1 : Fin 2) * 64 + 1 * d.val = d.val; rw [e2]; omega

def tileSum (c : Dev nD) (r : Fin 2048) (d : Fin 64) (n : ℕ) : EReal :=
  if h : n < cfg3.N then
    ∑ j : Fin 2048, hot ((grid3.coords ⟨n, h⟩) 1).val (srcBlk V c ⟨n, h⟩ (ix1 r)) j * tabBlk V c ⟨n, h⟩ (ix2 j d)
  else 0

theorem sum_inv (c : Dev nD) (r : Fin 2048) (d : Fin 64) :
    ∀ (n : ℕ) (hn : n < cfg3.N), sumAt V c n hn (ix2 r d) = Cert.LayerMath.runS 49 (tileSum V c r d) n := by
  intro n
  induction n with
  | zero =>
    intro hn
    show acc _ _ _ _ (ix2 r d) = _
    unfold acc
    rw [if_pos ((restart_iff ⟨0, hn⟩).mpr (Nat.zero_mod _))]
    refine (pay2_apply (grid3.coords ⟨0, hn⟩) (srcBlk V c ⟨0, hn⟩) (k0_pay1 (F := Ideal)) (tabBlk V c ⟨0, hn⟩) r d).trans ?_
    rw [pay1_apply]
    show 0 + _ = 0 + tileSum V c r d 0
    unfold tileSum
    rw [dif_pos hn]
  | succ n ih =>
    intro hn
    show acc _ _ _ (sumAt V c n (Nat.lt_of_succ_lt hn)) (ix2 r d)
      = (if (n + 1) % 49 = 0 then 0 else Cert.LayerMath.runS 49 (tileSum V c r d) n) + tileSum V c r d (n + 1)
    unfold acc
    by_cases h0 : (n + 1) % 49 = 0
    · rw [if_pos ((restart_iff ⟨n + 1, hn⟩).mpr h0), if_pos h0]
      refine (pay2_apply (grid3.coords ⟨n + 1, hn⟩) (srcBlk V c ⟨n + 1, hn⟩) (k0_pay1 (F := Ideal)) (tabBlk V c ⟨n + 1, hn⟩) r d).trans ?_
      rw [pay1_apply]
      unfold tileSum
      rw [dif_pos hn]
    · rw [if_neg fun h => h0 ((restart_iff ⟨n + 1, hn⟩).mp h), if_neg h0]
      refine (pay2_apply (grid3.coords ⟨n + 1, hn⟩) (srcBlk V c ⟨n + 1, hn⟩) (sumAt V c n (Nat.lt_of_succ_lt hn)) (tabBlk V c ⟨n + 1, hn⟩) r d).trans ?_
      rw [ih (Nat.lt_of_succ_lt hn)]
      unfold tileSum
      rw [dif_pos hn]

theorem ofNat_tile (k j : ℕ) : BitVec.ofNat 32 (k * 2048 + j) = BitVec.ofNat 32 k * 2048#32 + BitVec.ofNat 32 j := by
  rw [BitVec.ofNat_add, BitVec.ofNat_mul]

theorem tileSum_eq (c : Dev nD) (r : Fin 2048) (d : Fin 64) (p : ℕ) (hp : p < cfg3.N) :
    tileSum V c r d p = ∑ j : Fin 2048,
      (if srcAt V c (2048 * (p / 49) + r.val) = BitVec.ofNat 32 (p % 49) * 2048#32 + BitVec.ofNat 32 j.val then (1 : EReal) else 0)
        * tabAt V c d (2048 * (p % 49) + j.val) := by
  unfold tileSum
  rw [dif_pos hp]
  have e5 : ((grid3.coords ⟨p, hp⟩) 1).val = p % 49 := coord_snd ⟨p, hp⟩
  refine Finset.sum_congr rfl fun j _ => ?_
  rw [srcBlk_apply V c ⟨p, hp⟩ r, tabBlk_apply V c ⟨p, hp⟩ j d, e5]
  rfl

theorem join_tiles (w : BitVec 32) (tab : ℕ → EReal) :
    ∑ k ∈ Finset.range 49, ∑ j : Fin 2048,
        (if w = BitVec.ofNat 32 k * 2048#32 + BitVec.ofNat 32 j.val then (1 : EReal) else 0) * tab (2048 * k + j.val)
      = ∑ n ∈ Finset.range 100352, (if w = BitVec.ofNat 32 n then (1 : EReal) else 0) * tab n := by
  rw [show (100352 : ℕ) = 49 * 2048 from rfl,
    ← Cert.LayerMath.sum_tiles 49 2048 (fun n => (if w = BitVec.ofNat 32 n then (1 : EReal) else 0) * tab n)]
  refine Finset.sum_congr rfl fun k _ => ?_
  rw [Fin.sum_univ_eq_sum_range (fun j => (if w = BitVec.ofNat 32 k * 2048#32 + BitVec.ofNat 32 j then (1 : EReal) else 0) * tab (2048 * k + j)) 2048]
  refine Finset.sum_congr rfl fun j _ => ?_
  rw [ofNat_tile, Nat.mul_comm 2048 k]

theorem acc_last (c : Dev nD) (t : Fin cfg3.N) (h48 : t.val % 49 = 48) (r : Fin 2048) (d : Fin 64) :
    sumAt V c t.val t.isLt (ix2 r d)
      = ∑ n ∈ Finset.range 100352,
          (if srcAt V c (2048 * (t.val / 49) + r.val) = BitVec.ofNat 32 n then (1 : EReal) else 0) * tabAt V c d n := by
  have hN : cfg3.N = 29939 := N_3
  have ht := t.isLt
  rw [sum_inv V c r d t.val t.isLt]
  have e : t.val = t.val / 49 * 49 + (49 - 1) := by omega
  rw [e, Cert.LayerMath.runS_line 49 (by decide), ← join_tiles]
  refine Finset.sum_congr rfl fun k hk => ?_
  have hk' : k < 49 := Finset.mem_range.mp hk
  have hp : t.val / 49 * 49 + k < cfg3.N := by omega
  rw [tileSum_eq V c r d _ hp, show (t.val / 49 * 49 + k) / 49 = t.val / 49 from by omega,
    show (t.val / 49 * 49 + k) % 49 = k from by omega, show (t.val / 49 * 49 + (49 - 1)) / 49 = t.val / 49 from by omega]

def msgArr (c : Dev nD) : FVec Ideal S1251328x64 .bf16 := fun y =>
  ∑ n ∈ Finset.range 100352, (if srcAt V c (y 0).val = BitVec.ofNat 32 n then (1 : EReal) else 0) * tabAt V c (y 1) n

theorem read_out_blk (G : FVec Ideal S1251328x64 .bf16) (t : Fin cfg3.N) (r : Fin 2048) (d : Fin 64)
    (hlt : 2048 * (t.val / 49) + r.val < 1251328) :
    ((cfg3.win 2).blk t).view.read (Elt Ideal) G (ix2 r d) = G (ix2 ⟨2048 * (t.val / 49) + r.val, hlt⟩ d) := by
  have e3 : win3_2.index t (0 : Fin 2) = t.val / 49 := by rw [Sched.index3_2]; rfl
  have e4 : win3_2.index t (1 : Fin 2) = 0 := by rw [Sched.index3_2]; rfl
  rw [View.read_apply]
  show G _ = G _
  refine congrArg G (funext fun a => Fin.ext ?_)
  match a with
  | ⟨0, _⟩ => show win3_2.index t (0 : Fin 2) * 2048 + 1 * r.val = 2048 * (t.val / 49) + r.val; rw [e3]; omega
  | ⟨1, _⟩ => show win3_2.index t (1 : Fin 2) * 64 + 1 * d.val = d.val; rw [e4]; omega

theorem flushed_eq (c : Dev nD) (t : Fin cfg3.N) (hf : (cfg3.win 2).flush t = true) :
    (dat V c).flushed 2 t = ((cfg3.win 2).blk t).view.read (Elt Ideal) (msgArr V c) := by
  have h48 : t.val % 49 = 48 := (Sched.flush3_2 t).mp hf
  have hN : cfg3.N = 29939 := N_3
  have ht := t.isLt
  have e3 : win3_2.index t (0 : Fin 2) = t.val / 49 := by rw [Sched.index3_2]; rfl
  have e4 : win3_2.index t (1 : Fin 2) = 0 := by rw [Sched.index3_2]; rfl
  show (cfg3.win 2).cut (grid3.coords t) ((dat V c).after 2 t) = _
  rw [after_2]
  funext y
  obtain ⟨r, d, rfl⟩ : ∃ (r : Fin 2048) (d : Fin 64), y = ix2 r d := ⟨y 0, y 1, eq_ix2 y⟩
  have hlt : 2048 * (t.val / 49) + r.val < 1251328 := by omega
  refine Eq.trans ?_ (read_out_blk (msgArr V c) t r d hlt).symm
  exact acc_last V c t h48 r d

theorem mem_blk (t : Fin cfg3.N) (i : S1251328x64.Idx) :
    i ∈ ((cfg3.win 2).blk t).view.set ↔ ∀ a : Fin 2, win3_2.index t a * S2048x64.size a ≤ (i a).val
      ∧ (i a).val < win3_2.index t a * S2048x64.size a + S2048x64.size a := by
  show i ∈ ((View.whole main_v13).slice (win3_2.rect t)).set ↔ _
  rw [View.set_slice_whole, Rect.mem_set_unit]
  exact Iff.rfl

theorem covered (i : S1251328x64.Idx) :
    ∃ t : Fin cfg3.N, (cfg3.win 2).flush t = true ∧ i ∈ ((cfg3.win 2).blk t).view.set := by
  have hN : cfg3.N = 29939 := N_3
  have hi0 : (i 0).val < 1251328 := (i 0).isLt
  have hi1 : (i 1).val < 64 := (i 1).isLt
  have htl : 49 * ((i 0).val / 2048) + 48 < cfg3.N := by omega
  have e3 : win3_2.index ⟨49 * ((i 0).val / 2048) + 48, htl⟩ (0 : Fin 2) = (49 * ((i 0).val / 2048) + 48) / 49 := by
    rw [Sched.index3_2]; rfl
  have e4 : win3_2.index ⟨49 * ((i 0).val / 2048) + 48, htl⟩ (1 : Fin 2) = 0 := by rw [Sched.index3_2]; rfl
  refine ⟨⟨49 * ((i 0).val / 2048) + 48, htl⟩, (Sched.flush3_2 _).mpr (by show (49 * ((i 0).val / 2048) + 48) % 49 = 48; omega), ?_⟩
  rw [mem_blk]
  intro a
  match a with
  | ⟨0, _⟩ =>
    show win3_2.index ⟨49 * ((i 0).val / 2048) + 48, htl⟩ (0 : Fin 2) * 2048 ≤ (i 0).val
      ∧ (i 0).val < win3_2.index ⟨49 * ((i 0).val / 2048) + 48, htl⟩ (0 : Fin 2) * 2048 + 2048
    rw [e3]; omega
  | ⟨1, _⟩ =>
    show win3_2.index ⟨49 * ((i 0).val / 2048) + 48, htl⟩ (1 : Fin 2) * 64 ≤ (i 1).val
      ∧ (i 1).val < win3_2.index ⟨49 * ((i 0).val / 2048) + 48, htl⟩ (1 : Fin 2) * 64 + 64
    rw [e4]; omega

/-- Row `e`, column `d` of the messages is the table row that source word `e` names: a one-hot sum over the table's rows. -/
theorem final_msg (c : Dev nD) (e : Fin 1251328) (d : Fin 64) :
    ((dat (F := Ideal) V c).arrAt 2 cfg3.N : FVec Ideal S1251328x64 .bf16) (ix2 e d)
      = ∑ n ∈ Finset.range 100352, (if srcAt V c e.val = BitVec.ofNat 32 n then (1 : EReal) else 0) * tabAt V c d n := by
  have h := (dat (F := Ideal) V c).arrAt_eq_of_cover 2 (msgArr V c) (flushed_eq V c) covered
  exact congrFun h (ix2 e d)

end Cert.KernelIdeal.Msg2

end
-- ==== Proof.KernelIdeal.Agg2Val.lean ====
import proofs.«401808_j32040456028632_1_alg».proof.Proof.KernelIdeal.Agg2Body
import proofs.«401808_j32040456028632_1_alg».proof.Proof.KernelIdeal.Agg2Body
import proofs.«401808_j32040456028632_1_alg».proof.Proof.KernelIdeal.ScatterMath
import proofs.«401808_j32040456028632_1_alg».proof.Proof.KernelIdeal.Sched
import proofs.«401808_j32040456028632_1_alg».proof.Proof.LayerMath
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option maxRecDepth 16384

noncomputable section

open scoped BigOperators

namespace Cert.KernelIdeal.Agg2

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Scatter

variable (V : (c : Dev nD) → (b : Ref sig .tc) → Buf (Elt Ideal) ((c : Thread nD τ).loc b))

def dstAt (c : Dev nD) (e : ℕ) : BitVec 32 :=
  if h : e < 1251328 then (V c main_v6 : IVec S1251328 32) (ix1 ⟨e, h⟩) else 0

def msgAt (c : Dev nD) (d : Fin 64) (e : ℕ) : EReal :=
  if h : e < 1251328 then (V c main_v13 : FVec Ideal S1251328x64 .bf16) (ix2 ⟨e, h⟩ d) else 0

abbrev dblk (c : Dev nD) (t : Fin cfg4.N) : Vec Ideal S2048 .i32 := iblk V c 0 t

abbrev mblk (c : Dev nD) (t : Fin cfg4.N) : Vec Ideal S2048x64 .bf16 := iblk V c 1 t

theorem coords0 (t : Fin cfg4.N) : (grid4.coords t 0).val = t.val / 611 := by
  have hN : t.val < 29939 := lt_of_lt_of_eq t.isLt N_4
  show t.val / grid4.stride 0 % grid4.bound 0 = _
  rw [show grid4.stride 0 = 611 from by decide, show grid4.bound 0 = 49 from rfl]
  exact Nat.mod_eq_of_lt (by omega)

theorem mblk_apply (c : Dev nD) (t : Fin cfg4.N) (k : Fin 2048) (d : Fin 64) (e : Fin 1251328)
    (he : e.val = (t.val % 611) * 2048 + k.val) :
    mblk V c t (ix2 k d) = (V c main_v13 : FVec Ideal S1251328x64 .bf16) (ix2 e d) := by
  unfold mblk iblk
  rw [View.read_apply]
  show V c main_v13 _ = V c main_v13 _
  congr 1
  funext a
  apply Fin.ext
  match a with
  | ⟨0, _⟩ =>
    show win4_1.index t 0 * 2048 + 1 * k.val = e.val
    rw [Sched.index4_1, he]; show (t.val % 611) * 2048 + 1 * k.val = _; omega
  | ⟨1, _⟩ =>
    show win4_1.index t 1 * 64 + 1 * d.val = d.val
    rw [Sched.index4_1]; show 0 * 64 + 1 * d.val = _; omega

theorem dblk_apply (c : Dev nD) (t : Fin cfg4.N) (k : Fin 2048) (e : Fin 1251328)
    (he : e.val = (t.val % 611) * 2048 + k.val) :
    dblk V c t (ix1 k) = (V c main_v6 : IVec S1251328 32) (ix1 e) := by
  unfold dblk iblk
  rw [View.read_apply]
  show V c main_v6 _ = V c main_v6 _
  congr 1
  funext a
  apply Fin.ext
  match a with
  | ⟨0, _⟩ =>
    show win4_0.index t 0 * 2048 + 1 * k.val = e.val
    rw [Sched.index4_0, he]; show (t.val % 611) * 2048 + 1 * k.val = _; omega

def term (c : Dev nD) (v : ℕ) (d : Fin 64) (e : ℕ) : EReal :=
  (if BitVec.ofNat 32 v = dstAt V c e then (1 : EReal) else 0) * msgAt V c d e

def tileS (c : Dev nD) (r : Fin 2048) (d : Fin 64) (n : ℕ) : EReal :=
  if h : n < cfg4.N then
    ∑ k : Fin 2048, (if BitVec.ofNat 32 (grid4.coords ⟨n, h⟩ 0).val * 2048#32 + BitVec.ofNat 32 r.val = dblk V c ⟨n, h⟩ (ix1 k)
      then (1 : EReal) else 0) * mblk V c ⟨n, h⟩ (ix2 k d)
  else 0

theorem node_word (j r : ℕ) : BitVec.ofNat 32 j * 2048#32 + BitVec.ofNat 32 r = BitVec.ofNat 32 (j * 2048 + r) := by
  rw [BitVec.ofNat_add, BitVec.ofNat_mul]

theorem tileS_eq (c : Dev nD) (r : Fin 2048) (d : Fin 64) (n : ℕ) (hn : n < cfg4.N) :
    tileS V c r d n = ∑ k : Fin 2048, term V c ((n / 611) * 2048 + r.val) d ((n % 611) * 2048 + k.val) := by
  have hN : n < 29939 := lt_of_lt_of_eq hn N_4
  unfold tileS
  rw [dif_pos hn]
  refine Finset.sum_congr rfl fun k _ => ?_
  have hk : (n % 611) * 2048 + k.val < 1251328 := by have := k.isLt; omega
  rw [dblk_apply V c ⟨n, hn⟩ k ⟨(n % 611) * 2048 + k.val, hk⟩ rfl, mblk_apply V c ⟨n, hn⟩ k d ⟨(n % 611) * 2048 + k.val, hk⟩ rfl,
    coords0, node_word]
  unfold term dstAt msgAt
  rw [dif_pos hk, dif_pos hk]

theorem line_sum (g : ℕ → EReal) :
    ∑ k ∈ Finset.range 611, ∑ x : Fin 2048, g (k * 2048 + x.val) = ∑ e ∈ Finset.range 1251328, g e := by
  have h : ∀ k, ∑ x : Fin 2048, g (k * 2048 + x.val) = ∑ x ∈ Finset.range 2048, g (k * 2048 + x) :=
    fun k => Fin.sum_univ_eq_sum_range (fun x => g (k * 2048 + x)) 2048
  simp only [h]
  exact Cert.LayerMath.sum_tiles 611 2048 g

theorem pay1_apply (r : Fin 2048) (d : Fin 64) : k1_pay1 (F := Ideal) (ix2 r d) = 0 := by
  unfold k1_pay1
  rw [shapeCast_self]
  exact Ideal.ofBits_zero_f32

theorem sum_inv (c : Dev nD) (r : Fin 2048) (d : Fin 64) :
    ∀ (n : ℕ) (hn : n < cfg4.N), sumAt V c n hn (ix2 r d) = Cert.LayerMath.runS 611 (tileS V c r d) n := by
  intro n
  induction n with
  | zero =>
    intro hn
    show acc _ _ _ _ (ix2 r d) = _
    unfold acc
    rw [if_pos ((restart_iff ⟨0, hn⟩).mpr (Nat.zero_mod _))]
    refine (pay2_apply (grid4.coords ⟨0, hn⟩) (dblk V c ⟨0, hn⟩) (k1_pay1 (F := Ideal)) (mblk V c ⟨0, hn⟩) r d).trans ?_
    rw [pay1_apply]
    show 0 + _ = 0 + tileS V c r d 0
    unfold tileS
    rw [dif_pos hn]
  | succ n ih =>
    intro hn
    show acc _ _ _ (sumAt V c n (Nat.lt_of_succ_lt hn)) (ix2 r d)
      = (if (n + 1) % 611 = 0 then 0 else Cert.LayerMath.runS 611 (tileS V c r d) n) + tileS V c r d (n + 1)
    unfold acc
    by_cases h0 : (n + 1) % 611 = 0
    · rw [if_pos ((restart_iff ⟨n + 1, hn⟩).mpr h0), if_pos h0]
      refine (pay2_apply (grid4.coords ⟨n + 1, hn⟩) (dblk V c ⟨n + 1, hn⟩) (k1_pay1 (F := Ideal)) (mblk V c ⟨n + 1, hn⟩) r d).trans ?_
      rw [pay1_apply]
      unfold tileS
      rw [dif_pos hn]
    · rw [if_neg fun h => h0 ((restart_iff ⟨n + 1, hn⟩).mp h), if_neg h0]
      refine (pay2_apply (grid4.coords ⟨n + 1, hn⟩) (dblk V c ⟨n + 1, hn⟩) (sumAt V c n (Nat.lt_of_succ_lt hn)) (mblk V c ⟨n + 1, hn⟩) r d).trans ?_
      rw [ih (Nat.lt_of_succ_lt hn)]
      unfold tileS
      rw [dif_pos hn]

def nodeSum (c : Dev nD) (v : ℕ) (d : Fin 64) : EReal := ∑ e ∈ Finset.range 1251328, term V c v d e

def G (c : Dev nD) : FVec Ideal S100352x64 .f32 := fun i => nodeSum V c (i 0).val ⟨(i 1).val, idx2_lt1 i⟩

theorem G_apply (c : Dev nD) (v : Fin 100352) (d : Fin 64) : G V c (ix2 v d) = nodeSum V c v.val d := rfl

theorem line_value (c : Dev nD) (t : Fin cfg4.N) (hf : t.val % 611 = 610) (r : Fin 2048) (d : Fin 64) :
    sumAt V c t.val t.isLt (ix2 r d) = nodeSum V c ((t.val / 611) * 2048 + r.val) d := by
  have hN : t.val < 29939 := lt_of_lt_of_eq t.isLt N_4
  rw [sum_inv V c r d t.val t.isLt]
  have ht : t.val = (t.val / 611) * 611 + (611 - 1) := by omega
  rw [ht, Cert.LayerMath.runS_line 611 (by decide)]
  have hq : ((t.val / 611) * 611 + (611 - 1)) / 611 = t.val / 611 := by omega
  rw [hq]
  unfold nodeSum
  rw [← line_sum]
  refine Finset.sum_congr rfl fun k hk => ?_
  have hk' : k < 611 := Finset.mem_range.mp hk
  have hlt : (t.val / 611) * 611 + k < cfg4.N := lt_of_lt_of_eq (by omega) N_4.symm
  rw [tileS_eq V c r d _ hlt]
  have e1 : ((t.val / 611) * 611 + k) / 611 = t.val / 611 := by omega
  have e2 : ((t.val / 611) * 611 + k) % 611 = k := by omega
  rw [e1, e2]

theorem read_out_blk (A : FVec Ideal S100352x64 .f32) (t : Fin cfg4.N) (r : Fin 2048) (d : Fin 64)
    (hlt : (t.val / 611) * 2048 + r.val < 100352) :
    ((cfg4.win 2).blk t).view.read (Elt Ideal) A (ix2 r d) = A (ix2 ⟨(t.val / 611) * 2048 + r.val, hlt⟩ d) := by
  have e3 : win4_2.index t (0 : Fin 2) = t.val / 611 := by rw [Sched.index4_2]; rfl
  have e4 : win4_2.index t (1 : Fin 2) = 0 := by rw [Sched.index4_2]; rfl
  rw [View.read_apply]
  show A _ = A _
  refine congrArg A (funext fun a => Fin.ext ?_)
  match a with
  | ⟨0, _⟩ => show win4_2.index t (0 : Fin 2) * 2048 + 1 * r.val = (t.val / 611) * 2048 + r.val; rw [e3]; omega
  | ⟨1, _⟩ => show win4_2.index t (1 : Fin 2) * 64 + 1 * d.val = d.val; rw [e4]; omega

theorem flushed_eq (c : Dev nD) (t : Fin cfg4.N) (hf : (cfg4.win 2).flush t = true) :
    (dat (F := Ideal) V c).flushed 2 t = ((cfg4.win 2).blk t).view.read (Elt Ideal) (G V c) := by
  have h610 : t.val % 611 = 610 := (Sched.flush4_2 t).mp hf
  have hN : t.val < 29939 := lt_of_lt_of_eq t.isLt N_4
  show (cfg4.win 2).cut (grid4.coords t) ((dat (F := Ideal) V c).after 2 t) = _
  rw [after_2]
  funext y
  obtain ⟨r, d, rfl⟩ : ∃ (r : Fin 2048) (d : Fin 64), y = ix2 r d := ⟨y 0, y 1, eq_ix2 y⟩
  have hlt : (t.val / 611) * 2048 + r.val < 100352 := by have := r.isLt; omega
  refine Eq.trans ?_ (read_out_blk (G V c) t r d hlt).symm
  exact (line_value V c t h610 r d).trans (G_apply V c ⟨(t.val / 611) * 2048 + r.val, hlt⟩ d).symm

theorem mem_blk (t : Fin cfg4.N) (i : S100352x64.Idx) :
    i ∈ ((cfg4.win 2).blk t).view.set ↔ ∀ a : Fin 2, win4_2.index t a * S2048x64.size a ≤ (i a).val
      ∧ (i a).val < win4_2.index t a * S2048x64.size a + S2048x64.size a := by
  show i ∈ ((View.whole main_v14).slice (win4_2.rect t)).set ↔ _
  rw [View.set_slice_whole, Rect.mem_set_unit]
  exact Iff.rfl

theorem covered (i : S100352x64.Idx) :
    ∃ t : Fin cfg4.N, (cfg4.win 2).flush t = true ∧ i ∈ ((cfg4.win 2).blk t).view.set := by
  have hi0 : (i 0).val < 100352 := (i 0).isLt
  have hi1 : (i 1).val < 64 := (i 1).isLt
  have htl : ((i 0).val / 2048) * 611 + 610 < cfg4.N := lt_of_lt_of_eq (by omega) N_4.symm
  have e3 : win4_2.index ⟨((i 0).val / 2048) * 611 + 610, htl⟩ (0 : Fin 2) = (((i 0).val / 2048) * 611 + 610) / 611 := by
    rw [Sched.index4_2]; rfl
  have e4 : win4_2.index ⟨((i 0).val / 2048) * 611 + 610, htl⟩ (1 : Fin 2) = 0 := by rw [Sched.index4_2]; rfl
  refine ⟨⟨((i 0).val / 2048) * 611 + 610, htl⟩, (Sched.flush4_2 _).mpr (by show (((i 0).val / 2048) * 611 + 610) % 611 = 610; omega), ?_⟩
  rw [mem_blk]
  intro a
  match a with
  | ⟨0, _⟩ =>
    show win4_2.index ⟨((i 0).val / 2048) * 611 + 610, htl⟩ (0 : Fin 2) * 2048 ≤ (i 0).val
      ∧ (i 0).val < win4_2.index ⟨((i 0).val / 2048) * 611 + 610, htl⟩ (0 : Fin 2) * 2048 + 2048
    rw [e3]; omega
  | ⟨1, _⟩ =>
    show win4_2.index ⟨((i 0).val / 2048) * 611 + 610, htl⟩ (1 : Fin 2) * 64 ≤ (i 1).val
      ∧ (i 1).val < win4_2.index ⟨((i 0).val / 2048) * 611 + 610, htl⟩ (1 : Fin 2) * 64 + 64
    rw [e4]; omega

/-- Row `v`, column `d` of the aggregate is the sum of the messages whose destination word names `v`. -/
theorem final_agg (c : Dev nD) (v : Fin 100352) (d : Fin 64) :
    ((dat (F := Ideal) V c).arrAt 2 cfg4.N : FVec Ideal S100352x64 .f32) (ix2 v d)
      = ∑ e ∈ Finset.range 1251328, (if BitVec.ofNat 32 v.val = dstAt V c e then (1 : EReal) else 0) * msgAt V c d e := by
  have h := (dat (F := Ideal) V c).arrAt_eq_of_cover 2 (G V c) (flushed_eq V c) covered
  refine (congrFun h (ix2 v d)).trans ?_
  rw [G_apply]
  unfold nodeSum term
  rfl

end Cert.KernelIdeal.Agg2

end
-- ==== Proof.Spec.lean ====
import Idealize.ShloMosaic.Lib.ValueIdx
import Idealize.ShloMosaic.PureOps.Ideal
import Mathlib.Algebra.BigOperators.Group.Finset.Basic

noncomputable section

open scoped BigOperators

namespace Cert.Spec

open Idealize.ShloMosaic Idealize.ShloMosaic.ValueIdx

abbrev SE : Shape := ⟨2, ![2, 1250000]⟩
abbrev SX : Shape := ⟨2, ![100000, 64]⟩

def srcW (ei : IVec SE 32) (e : ℕ) : BitVec 32 :=
  if h : e < 1250000 then ei (ix2 (0 : Fin 2) ⟨e, h⟩) else BitVec.allOnes 32

def dstW (ei : IVec SE 32) (e : ℕ) : BitVec 32 :=
  if h : e < 1250000 then ei (ix2 (1 : Fin 2) ⟨e, h⟩) else BitVec.allOnes 32

def col (x : FVec Ideal SX .f32) (d : Fin 64) (n : ℕ) : EReal :=
  if h : n < 100000 then x (ix2 ⟨n, h⟩ d) else 0

def round (src dst : ℕ → BitVec 32) (table : ℕ → EReal) (v : ℕ) : EReal :=
  ∑ e ∈ (Finset.range 1250000).filter (fun e => (dst e).toInt = (v : ℤ)), table (src e).toNat

def result (ei : IVec SE 32) (x : FVec Ideal SX .f32) (v : ℕ) (d : Fin 64) : EReal :=
  round (srcW ei) (dstW ei) (fun n => max (round (srcW ei) (dstW ei) (col x d) n) 0) v

end Cert.Spec

end
-- ==== Proof.KernelIdeal.Bridge.lean ====
import proofs.«401808_j32040456028632_1_alg».proof.Proof.KernelIdeal.Whole
import proofs.«401808_j32040456028632_1_alg».proof.Proof.KernelIdeal.HostVal
import proofs.«401808_j32040456028632_1_alg».proof.Proof.KernelIdeal.MsgVal
import proofs.«401808_j32040456028632_1_alg».proof.Proof.KernelIdeal.AggVal
import proofs.«401808_j32040456028632_1_alg».proof.Proof.KernelIdeal.ReluVal
import proofs.«401808_j32040456028632_1_alg».proof.Proof.KernelIdeal.Msg2Val
import proofs.«401808_j32040456028632_1_alg».proof.Proof.KernelIdeal.Agg2Val
import proofs.«401808_j32040456028632_1_alg».proof.Proof.LayerMath
import proofs.«401808_j32040456028632_1_alg».proof.Proof.Spec

set_option maxRecDepth 16384

noncomputable section

open scoped BigOperators

namespace Cert.KernelIdeal.Bridge

open Idealize.ShloMosaic Idealize.ShloMosaic.TcCoe Idealize.ShloMosaic.ValueIdx
open Idealize.SL Idealize.SL.Sem
open Cert.KernelIdeal Cert.KernelIdeal.Gen Cert.KernelIdeal.Whole

variable (m : (ℓ : Loc nD τ sig) → Buf (Elt Ideal) ℓ) (ρ : Dev nD → PrngReg) (c : Dev nD)

abbrev tab : FVec Ideal S100000x64 .f32 := m ((c : Thread nD τ).loc main_arg0)
abbrev edges : IVec S2x1250000 32 := m ((c : Thread nD τ).loc main_arg1)

theorem allOnes_word : (4294967295#32 : BitVec 32) = BitVec.allOnes 32 := by decide

theorem src_first (e : ℕ) (he : e < 1251328) : Msg.srcAt (T1 m ρ) c e = Cert.Spec.srcW (edges m c) e := by
  unfold Msg.srcAt Cert.Spec.srcW
  rw [dif_pos he]
  show (StableHlo.after (hostOps0 (F := Ideal)) (M0 m ρ c) (Proc.devRef .tc main_v5) : IVec S1251328 32) (ix1 ⟨e, he⟩) = _
  rw [HostVal.src_pad]
  by_cases h : e < 1250000
  · rw [dif_pos h, dif_pos h]
  · rw [dif_neg h, dif_neg h, allOnes_word]

theorem dst_first (e : ℕ) (he : e < 1251328) :
    (T1 m ρ c main_v6 : IVec S1251328 32) (ix1 ⟨e, he⟩) = Cert.Spec.dstW (edges m c) e := by
  unfold Cert.Spec.dstW
  show (StableHlo.after (hostOps0 (F := Ideal)) (M0 m ρ c) (Proc.devRef .tc main_v6) : IVec S1251328 32) (ix1 ⟨e, he⟩) = _
  rw [HostVal.dst_pad]
  by_cases h : e < 1250000
  · rw [dif_pos h, dif_pos h]
  · rw [dif_neg h, dif_neg h, allOnes_word]

theorem tab_first (d : Fin 64) (n : ℕ) : Msg.tabAt (T1 m ρ) c d n = Cert.Spec.col (tab m c) d n := by
  unfold Msg.tabAt Cert.Spec.col
  by_cases hn : n < 100352
  · rw [dif_pos hn]
    show (StableHlo.after (hostOps0 (F := Ideal)) (M0 m ρ c) (Proc.devRef .tc main_v9) : FVec Ideal S100352x64 .bf16) (ix2 ⟨n, hn⟩ d) = _
    rw [HostVal.tab_pad]
  · rw [dif_neg hn, dif_neg (by omega)]

theorem src_second : (T4 m ρ c main_v5 : IVec S1251328 32) = T1 m ρ c main_v5 :=
  (M4_of_ne m ρ c main_v5 (by decide)).trans ((M3_of_ne m ρ c main_v5 (by decide)).trans
    ((M2_arr m ρ c 0).trans (((Msg.dat (F := Ideal) (T1 m ρ) c).arrAt_in 0 rfl _).trans (Msg.A_eq (T1 m ρ) c 0))))

theorem dst_at2 : (T2 m ρ c main_v6 : IVec S1251328 32) = T1 m ρ c main_v6 := M2_of_ne m ρ c main_v6 (by decide)

theorem dst_at5 : (T5 m ρ c main_v6 : IVec S1251328 32) = T1 m ρ c main_v6 :=
  (M5_of_ne m ρ c main_v6 (by decide)).trans ((M4_of_ne m ρ c main_v6 (by decide)).trans
    (((M3_arr m ρ c 0).trans (((Agg.dat (F := Ideal) (T2 m ρ) c).arrAt_in 0 rfl _).trans (Agg.A_eq (T2 m ρ) c 0))).trans
      (M2_of_ne m ρ c main_v6 (by decide))))

variable (hsrc : ∀ e, e < 1250000 → 0 ≤ (Cert.Spec.srcW (edges m c) e).toInt ∧ (Cert.Spec.srcW (edges m c) e).toInt < ((100000 : ℕ) : ℤ))

theorem hpad (e : ℕ) (h1 : 1250000 ≤ e) (h2 : e < 1251328) :
    Cert.Spec.srcW (edges m c) e = BitVec.allOnes 32 ∧ Cert.Spec.dstW (edges m c) e = BitVec.allOnes 32 := by
  unfold Cert.Spec.srcW Cert.Spec.dstW
  rw [dif_neg (by omega), dif_neg (by omega)]; exact ⟨rfl, rfl⟩

include hsrc in

theorem first_round (v : Fin 100352) (hv : v.val < 100000) (d : Fin 64) :
    (T3 m ρ c main_v11 : FVec Ideal S100352x64 .f32) (ix2 v d)
      = Cert.Spec.round (Cert.Spec.srcW (edges m c)) (Cert.Spec.dstW (edges m c)) (Cert.Spec.col (tab m c) d) v.val := by
  refine (congrArg (fun f : FVec Ideal S100352x64 .f32 => f (ix2 v d)) (M3_arr m ρ c 2)).trans ?_
  rw [Agg.final_agg]
  unfold Cert.Spec.round
  rw [← Cert.LayerMath.layer 1250000 1251328 100000 100352 (by norm_num) (by norm_num) (by norm_num)
    (Cert.Spec.srcW (edges m c)) (Cert.Spec.dstW (edges m c)) (Cert.Spec.col (tab m c) d) hsrc (hpad m c) v.val hv]
  refine Finset.sum_congr rfl fun e he => ?_
  have he' : e < 1251328 := Finset.mem_range.mp he
  have hd : Agg.dstAt (T2 m ρ) c e = Cert.Spec.dstW (edges m c) e := by
    unfold Agg.dstAt; rw [dif_pos he', dst_at2]; exact dst_first m ρ c e he'
  have hm : Agg.msgAt (T2 m ρ) c d e
      = ∑ n ∈ Finset.range 100352, (if Cert.Spec.srcW (edges m c) e = BitVec.ofNat 32 n then (1 : EReal) else 0) * Cert.Spec.col (tab m c) d n := by
    unfold Agg.msgAt; rw [dif_pos he']
    refine (congrArg (fun f : FVec Ideal S1251328x64 .bf16 => f (ix2 ⟨e, he'⟩ d)) (M2_arr m ρ c 2)).trans ?_
    rw [Msg.final_msg]
    refine Finset.sum_congr rfl fun n _ => ?_
    rw [src_first m ρ c e he', tab_first]
  rw [hd, hm]

theorem tab_second (d : Fin 64) (n : ℕ) :
    Msg2.tabAt (T4 m ρ) c d n
      = if h : n < 100352 then (max ((T3 m ρ c main_v11 : FVec Ideal S100352x64 .f32) (ix2 ⟨n, h⟩ d)) 0 : EReal) else 0 := by
  unfold Msg2.tabAt
  by_cases hn : n < 100352
  · rw [dif_pos hn, dif_pos hn]
    refine (congrArg (fun f : FVec Ideal S100352x64 .bf16 => f (ix2 ⟨n, hn⟩ d)) (M4_arr m ρ c 1)).trans ?_
    rw [Relu.final_relu]
  · rw [dif_neg hn, dif_neg hn]

include hsrc in

/-- The kernel's result is the specification's two rounds of gather then scatter-add, the second over `max(·, 0)` of the first. -/
theorem kernel_result (v : Fin 100000) (d : Fin 64) :
    (M7 (F := Ideal) m ρ c (Proc.devRef .tc main_v15) : FVec Ideal S100000x64 .f32) (ix2 v d)
      = Cert.Spec.result (edges m c) (tab m c) v.val d := by
  show (StableHlo.after (hostOps5 (F := Ideal)) (M6 m ρ c) (Proc.devRef .tc main_v15) : FVec Ideal S100000x64 .f32) (ix2 v d) = _
  rw [HostVal.out_rows]
  refine (congrArg (fun f : FVec Ideal S100352x64 .f32 => f (ix2 ⟨v.val, by have := v.isLt; omega⟩ d)) (M6_arr m ρ c 2)).trans ?_
  rw [Agg2.final_agg]
  unfold Cert.Spec.result Cert.Spec.round

  have key := Cert.LayerMath.layer 1250000 1251328 100000 100352 (by norm_num) (by norm_num) (by norm_num)
    (Cert.Spec.srcW (edges m c)) (Cert.Spec.dstW (edges m c)) (Msg2.tabAt (T4 m ρ) c d) hsrc (hpad m c) v.val v.isLt
  refine Eq.trans ?_ (key.trans ?_)
  · refine Finset.sum_congr rfl fun e he => ?_
    have he' : e < 1251328 := Finset.mem_range.mp he
    have hd : Agg2.dstAt (T5 m ρ) c e = Cert.Spec.dstW (edges m c) e := by
      unfold Agg2.dstAt; rw [dif_pos he', dst_at5]; exact dst_first m ρ c e he'
    have hm : Agg2.msgAt (T5 m ρ) c d e
        = ∑ n ∈ Finset.range 100352, (if Cert.Spec.srcW (edges m c) e = BitVec.ofNat 32 n then (1 : EReal) else 0) * Msg2.tabAt (T4 m ρ) c d n := by
      unfold Agg2.msgAt; rw [dif_pos he']
      refine (congrArg (fun f : FVec Ideal S1251328x64 .bf16 => f (ix2 ⟨e, he'⟩ d)) (M5_arr m ρ c 2)).trans ?_
      rw [Msg2.final_msg]
      refine Finset.sum_congr rfl fun n _ => ?_
      have hs : Msg2.srcAt (T4 m ρ) c e = Cert.Spec.srcW (edges m c) e := by
        have := src_first m ρ c e he'
        unfold Msg.srcAt at this; unfold Msg2.srcAt
        rw [dif_pos he'] at this ⊢
        rw [src_second]; exact this
      rw [hs]
    rw [hd, hm]
  · refine Finset.sum_congr rfl fun e he => ?_
    have he' : e < 1250000 := Finset.mem_range.mp (Finset.mem_filter.mp he).1
    obtain ⟨h0, h1⟩ := hsrc e he'
    have hlt : (Cert.Spec.srcW (edges m c) e).toNat < 100000 := by
      have := BitVec.toInt_eq_toNat_cond (Cert.Spec.srcW (edges m c) e)
      have hb := (Cert.Spec.srcW (edges m c) e).isLt
      split at this <;> omega
    rw [tab_second, dif_pos (by omega)]
    rw [first_round m ρ c hsrc ⟨(Cert.Spec.srcW (edges m c) e).toNat, by omega⟩ hlt d]
    rfl

end Cert.KernelIdeal.Bridge

end
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

open scoped BigOperators

namespace Cert.LibScatterGatherRows

open Idealize.ShloMosaic Idealize.ShloMosaic.ValueIdx

theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by

  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>

    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>

    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd

  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>

    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>

    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

end Cert.LibScatterGatherRows
-- ==== Proof.RefValue.lean ====
import proofs.«401808_j32040456028632_1_alg».proof.Proof.Gen.ReferenceIdeal.Run
import proofs.«401808_j32040456028632_1_alg».proof.Proof.Gen.ReferenceIdeal.Read
import proofs.«401808_j32040456028632_1_alg».proof.Proof.LibScatterGatherRows
import proofs.«401808_j32040456028632_1_alg».proof.Proof.Spec
import Idealize.ShloMosaic.Lib.ValueIdx
import Idealize.ShloMosaic.Lib.Pipeline.Value
import Idealize.ShloMosaic.PureOps.Ideal
import Idealize.ShloMosaic.PureOps.Ideal.Laws
import Mathlib.Algebra.BigOperators.Fin

open scoped BigOperators

noncomputable section

namespace Cert.RefValue

open Idealize.ShloMosaic Idealize.ShloMosaic.ValueIdx Cert.ReferenceIdeal Cert.ReferenceIdeal.Gen

theorem wrap_nonneg (w : BitVec 32) (h : 0 ≤ w.toInt) :
    Scalar.select (IntOp.cmpi .slt w 0#32) (IntOp.addi w 100000#32) w = w := by
  have hc : IntOp.cmpi .slt w 0#32 = 0#1 := by
    unfold IntOp.cmpi
    show BitVec.ofBool (w.slt 0#32) = 0#1
    rw [BitVec.slt_eq_decide, BitVec.toInt_zero, decide_eq_false (by omega)]
    rfl
  rw [hc, select_zero]

theorem clamp_row (w : BitVec 32) (h0 : 0 ≤ w.toInt) (h1 : w.toInt < ((100000 : ℕ) : ℤ)) :
    min w.toInt.toNat (100000 - 1) = w.toNat ∧ w.toNat < 100000 := by
  have hw := w.isLt
  rw [BitVec.toInt_eq_toNat_cond] at h0 h1 ⊢
  split at h0 <;> omega

theorem sum_fin_filter (n : ℕ) (P : ℕ → Prop) [DecidablePred P] (f : ℕ → EReal)
    (inst : DecidablePred (fun e : Fin n => P e.val)) :
    ∑ e ∈ @Finset.filter _ (fun e : Fin n => P e.val) inst Finset.univ, f e.val
      = ∑ e ∈ (Finset.range n).filter P, f e := by
  rw [Finset.sum_filter, Finset.sum_filter, ← Fin.sum_univ_eq_sum_range (fun e => if P e then f e else 0) n]
  refine Finset.sum_congr rfl (fun e _ => ?_)
  by_cases h : P e.val
  · rw [if_pos h, if_pos h]
  · rw [if_neg h, if_neg h]

theorem src_row_apply (x1 : IVec S2x1250000 32) (i : S1250000.Idx) :
    Read.val_main_v1 (F := Ideal) x1 i = Cert.Spec.srcW x1 (i 0).val := by
  have hi : (i 0).val < 1250000 := (i 0).isLt
  rw [Read.val_main_v1_apply, Read.val_main_v0_apply]
  unfold Cert.Spec.srcW
  rw [dif_pos hi]
  refine congrArg x1 (funext fun a => Fin.ext ?_)
  match a with
  | ⟨0, _⟩ => rfl
  | ⟨1, _⟩ => exact Nat.mod_eq_of_lt hi

theorem dst_row_apply (x1 : IVec S2x1250000 32) (i : S1250000.Idx) :
    Read.val_main_v3 (F := Ideal) x1 i = Cert.Spec.dstW x1 (i 0).val := by
  have hi : (i 0).val < 1250000 := (i 0).isLt
  rw [Read.val_main_v3_apply, Read.val_main_v2_apply]
  unfold Cert.Spec.dstW
  rw [dif_pos hi]
  refine congrArg x1 (funext fun a => Fin.ext ?_)
  match a with
  | ⟨0, _⟩ => rfl
  | ⟨1, _⟩ => exact Nat.mod_eq_of_lt hi

theorem dst_col1_apply (x1 : IVec S2x1250000 32) (e : Fin 1250000) :
    Read.val_main_v12 (F := Ideal) x1 (ix2 e 0) = Cert.Spec.dstW x1 e.val := by
  rw [Read.val_main_v12_apply, dst_row_apply]

theorem dst_col2_apply (x1 : IVec S2x1250000 32) (e : Fin 1250000) :
    Read.val_main_v23 (F := Ideal) x1 (ix2 e 0) = Cert.Spec.dstW x1 e.val := by
  rw [Read.val_main_v23_apply, dst_row_apply]

theorem src_sel1_apply (x1 : IVec S2x1250000 32)
    (hsrc : ∀ e, e < 1250000 → 0 ≤ (Cert.Spec.srcW x1 e).toInt ∧ (Cert.Spec.srcW x1 e).toInt < ((100000 : ℕ) : ℤ))
    (i : S1250000.Idx) :
    Read.val_main_v8 (F := Ideal) x1 i = Cert.Spec.srcW x1 (i 0).val := by
  rw [Read.val_main_v8_apply, Read.val_main_v5_apply, Read.val_main_v7_apply, Read.val_main_v4_apply,
    Read.val_main_v6_apply, Read.val_main_c_apply, Read.val_main_c_0_apply, src_row_apply]
  exact wrap_nonneg _ (hsrc _ (i 0).isLt).1

theorem src_sel2_apply (x1 : IVec S2x1250000 32)
    (hsrc : ∀ e, e < 1250000 → 0 ≤ (Cert.Spec.srcW x1 e).toInt ∧ (Cert.Spec.srcW x1 e).toInt < ((100000 : ℕ) : ℤ))
    (i : S1250000.Idx) :
    Read.val_main_v19 (F := Ideal) x1 i = Cert.Spec.srcW x1 (i 0).val := by
  rw [Read.val_main_v19_apply, Read.val_main_v16_apply, Read.val_main_v18_apply, Read.val_main_v15_apply,
    Read.val_main_v17_apply, Read.val_main_c_1_apply, Read.val_main_c_2_apply, src_row_apply]
  exact wrap_nonneg _ (hsrc _ (i 0).isLt).1

theorem zero1_apply (i : S100000x64.Idx) : Read.val_main_v11 (F := Ideal) i = (0 : EReal) := by
  rw [Read.val_main_v11_apply, Read.val_main_cst_apply]
  exact Ideal.ofBits_zero_f32

theorem zero2_apply (i : S100000x64.Idx) : Read.val_main_v22 (F := Ideal) i = (0 : EReal) := by
  rw [Read.val_main_v22_apply, Read.val_main_cst_3_apply]
  exact Ideal.ofBits_zero_f32

theorem zero_relu_apply (i : S100000x64.Idx) : Read.val_main_call0_v0 (F := Ideal) i = (0 : EReal) := by
  rw [Read.val_main_call0_v0_apply, Read.val_main_call0_cst_apply]
  exact Ideal.ofBits_zero_f32

theorem gather1_apply (x0 : FVec Ideal S100000x64 .f32) (x1 : IVec S2x1250000 32)
    (hsrc : ∀ e, e < 1250000 → 0 ≤ (Cert.Spec.srcW x1 e).toInt ∧ (Cert.Spec.srcW x1 e).toInt < ((100000 : ℕ) : ℤ))
    (e : Fin 1250000) (d : Fin 64) :
    Read.val_main_v10 (F := Ideal) x0 x1 (ix2 e d) = Cert.Spec.col x0 d (Cert.Spec.srcW x1 e.val).toNat := by
  have hw := hsrc e.val e.isLt
  obtain ⟨hmin, hlt⟩ := clamp_row _ hw.1 hw.2
  unfold Read.val_main_v10
  refine (Cert.LibScatterGatherRows.gather_rows_ideal (φ := .f32)
    gather_S100000x64_S1250000x1_S1250000x64_1_0_n_n_0_1_164 rfl rfl rfl rfl rfl x0
    (Read.val_main_v9 (F := Ideal) x1) e d (by omega)).trans ?_
  unfold Cert.Spec.col
  rw [dif_pos hlt]
  refine congrArg x0 (funext fun a => Fin.ext ?_)
  match a with
  | ⟨0, _⟩ =>
    show min (Read.val_main_v9 (F := Ideal) x1 (ix2 e 0)).toInt.toNat (100000 - 1) = (Cert.Spec.srcW x1 e.val).toNat
    rw [Read.val_main_v9_apply, src_sel1_apply x1 hsrc]
    exact hmin
  | ⟨1, _⟩ => rfl

theorem round1_apply (x0 : FVec Ideal S100000x64 .f32) (x1 : IVec S2x1250000 32)
    (hsrc : ∀ e, e < 1250000 → 0 ≤ (Cert.Spec.srcW x1 e).toInt ∧ (Cert.Spec.srcW x1 e).toInt < ((100000 : ℕ) : ℤ))
    (v : Fin 100000) (d : Fin 64) :
    Read.val_main_v13 (F := Ideal) x0 x1 (ix2 v d)
      = Cert.Spec.round (Cert.Spec.srcW x1) (Cert.Spec.dstW x1) (Cert.Spec.col x0 d) v.val := by
  unfold Read.val_main_v13
  refine (Cert.LibScatterGatherRows.scatterAdd_rows (φ := .f32)
    scatter_S100000x64_S1250000x1_S1250000x64_1_0_0_1 rfl rfl rfl rfl (Read.val_main_v11 (F := Ideal))
    (Read.val_main_v12 (F := Ideal) x1) (Read.val_main_v10 (F := Ideal) x0 x1) v d).trans ?_
  rw [zero1_apply, zero_add]
  simp only [dst_col1_apply, gather1_apply x0 x1 hsrc]
  exact sum_fin_filter 1250000 (fun e => (Cert.Spec.dstW x1 e).toInt = (v.val : ℤ))
    (fun e => Cert.Spec.col x0 d (Cert.Spec.srcW x1 e).toNat) _

theorem relu_apply (x0 : FVec Ideal S100000x64 .f32) (x1 : IVec S2x1250000 32)
    (hsrc : ∀ e, e < 1250000 → 0 ≤ (Cert.Spec.srcW x1 e).toInt ∧ (Cert.Spec.srcW x1 e).toInt < ((100000 : ℕ) : ℤ))
    (v : Fin 100000) (d : Fin 64) :
    Read.val_main_v14 (F := Ideal) x0 x1 (ix2 v d)
      = max (Cert.Spec.round (Cert.Spec.srcW x1) (Cert.Spec.dstW x1) (Cert.Spec.col x0 d) v.val) 0 := by
  rw [Read.val_main_v14_apply, round1_apply x0 x1 hsrc, zero_relu_apply]
  rfl

theorem gather2_apply (x0 : FVec Ideal S100000x64 .f32) (x1 : IVec S2x1250000 32)
    (hsrc : ∀ e, e < 1250000 → 0 ≤ (Cert.Spec.srcW x1 e).toInt ∧ (Cert.Spec.srcW x1 e).toInt < ((100000 : ℕ) : ℤ))
    (e : Fin 1250000) (d : Fin 64) :
    Read.val_main_v21 (F := Ideal) x0 x1 (ix2 e d)
      = max (Cert.Spec.round (Cert.Spec.srcW x1) (Cert.Spec.dstW x1) (Cert.Spec.col x0 d)
          (Cert.Spec.srcW x1 e.val).toNat) 0 := by
  have hw := hsrc e.val e.isLt
  obtain ⟨hmin, hlt⟩ := clamp_row _ hw.1 hw.2
  unfold Read.val_main_v21
  refine (Cert.LibScatterGatherRows.gather_rows_ideal (φ := .f32)
    gather_S100000x64_S1250000x1_S1250000x64_1_0_n_n_0_1_164 rfl rfl rfl rfl rfl
    (Read.val_main_v14 (F := Ideal) x0 x1) (Read.val_main_v20 (F := Ideal) x1) e d (by omega)).trans ?_
  refine Eq.trans ?_ (relu_apply x0 x1 hsrc ⟨(Cert.Spec.srcW x1 e.val).toNat, hlt⟩ d)
  refine congrArg (Read.val_main_v14 (F := Ideal) x0 x1) (funext fun a => Fin.ext ?_)
  match a with
  | ⟨0, _⟩ =>
    show min (Read.val_main_v20 (F := Ideal) x1 (ix2 e 0)).toInt.toNat (100000 - 1) = (Cert.Spec.srcW x1 e.val).toNat
    rw [Read.val_main_v20_apply, src_sel2_apply x1 hsrc]
    exact hmin
  | ⟨1, _⟩ => rfl

theorem result_apply (x0 : FVec Ideal S100000x64 .f32) (x1 : IVec S2x1250000 32)
    (hsrc : ∀ e, e < 1250000 → 0 ≤ (Cert.Spec.srcW x1 e).toInt ∧ (Cert.Spec.srcW x1 e).toInt < ((100000 : ℕ) : ℤ))
    (v : Fin 100000) (d : Fin 64) :
    Cert.ReferenceIdeal.Read.val_main_v24 (F := Ideal) x0 x1 (ix2 v d) = Cert.Spec.result x1 x0 v.val d := by
  unfold Read.val_main_v24
  refine (Cert.LibScatterGatherRows.scatterAdd_rows (φ := .f32)
    scatter_S100000x64_S1250000x1_S1250000x64_1_0_0_1 rfl rfl rfl rfl (Read.val_main_v22 (F := Ideal))
    (Read.val_main_v23 (F := Ideal) x1) (Read.val_main_v21 (F := Ideal) x0 x1) v d).trans ?_
  rw [zero2_apply, zero_add]
  simp only [dst_col2_apply, gather2_apply x0 x1 hsrc]
  exact sum_fin_filter 1250000 (fun e => (Cert.Spec.dstW x1 e).toInt = (v.val : ℤ))
    (fun e => max (Cert.Spec.round (Cert.Spec.srcW x1) (Cert.Spec.dstW x1) (Cert.Spec.col x0 d)
      (Cert.Spec.srcW x1 e).toNat) 0) _

end Cert.RefValue

end
-- ==== Proof.PreDecode.lean ====
import proofs.«401808_j32040456028632_1_alg».proof.Pre_finite_inputs
import proofs.«401808_j32040456028632_1_alg».proof.Proof.Gen.Pre_finite_inputs
import proofs.«401808_j32040456028632_1_alg».proof.Proof.Spec
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal

namespace Cert.PreDecode

open Idealize.ShloMosaic Idealize.ShloMosaic.ValueIdx

theorem src_read [Cert.Pre_finite_inputs.Facts] {α : Type}
    (ei : Cert.Pre_finite_inputs.S2x1250000.Idx → α) (e : Fin 1250000) :
    shapeCast Cert.Pre_finite_inputs.S1250000
        (extractStridedSlice Cert.Pre_finite_inputs.S1x1250000 ![0, 0] ei
          Cert.Pre_finite_inputs.Facts.slices_S2x1250000_S1x1250000_0_0)
        Cert.Pre_finite_inputs.Facts.shapeCasts_S1x1250000_S1250000 (ix1 e)
      = ei (ix2 (0 : Fin 2) e) := by
  rw [shapeCast_1a_a_apply]
  exact slice2_axis0_apply 0 ei _ (0 : Fin 1) e (0 : Fin 2) rfl

theorem src_in_range {F : FTy → Type} [FloatOps F] [Cert.Pre_finite_inputs.Facts]
    (x : FVec F Cert.Pre_finite_inputs.S100000x64 .f32) (ei : IVec Cert.Pre_finite_inputs.S2x1250000 32)
    (h : Cert.Pre_finite_inputs.fn (F := F) x ei = fun _ => 1#1) (e : Fin 1250000) :
    0 ≤ (ei (ix2 (0 : Fin 2) e)).toInt ∧ (ei (ix2 (0 : Fin 2) e)).toInt < 100000 := by

  have h0 := congrFun h ValueIdx.ix0
  dsimp only [Cert.Pre_finite_inputs.fn] at h0
  have h1 := (IntOp.andi_eq_one.1 h0).2

  haveI : Subsingleton Cert.Pre_finite_inputs.S_.Idx := ⟨fun a b => funext fun d => d.elim0⟩
  have h2 := Host.reduce_andi_all _ _ _ _ _ h1 (ix1 e)

  obtain ⟨hge, hlt⟩ := IntOp.andi_eq_one.1 h2
  have hge' := IntOp.cmpi_sge.1 hge
  have hlt' := IntOp.cmpi_slt.1 hlt
  have z0 : (0#32 : BitVec 32).toInt = 0 := by decide
  have z1 : (100000#32 : BitVec 32).toInt = 100000 := by decide
  constructor
  · rw [← src_read ei e, ← z0]; exact hge'
  · rw [← src_read ei e, ← z1]; exact hlt'

theorem srcW_in_range {F : FTy → Type} [FloatOps F] [Cert.Pre_finite_inputs.Facts]
    (x : FVec F Cert.Pre_finite_inputs.S100000x64 .f32) (ei : IVec Cert.Pre_finite_inputs.S2x1250000 32)
    (h : Cert.Pre_finite_inputs.fn (F := F) x ei = fun _ => 1#1) (e : ℕ) (he : e < 1250000) :
    0 ≤ (Cert.Spec.srcW ei e).toInt ∧ (Cert.Spec.srcW ei e).toInt < ((100000 : ℕ) : ℤ) := by
  have hs := src_in_range x ei h ⟨e, he⟩
  unfold Cert.Spec.srcW
  rw [dif_pos he]
  exact_mod_cast hs

end Cert.PreDecode
-- ==== Proof.lean ====
import proofs.«401808_j32040456028632_1_alg».proof.Defs
import proofs.«401808_j32040456028632_1_alg».proof.Proof.Gen.Kernel
import proofs.«401808_j32040456028632_1_alg».proof.Proof.Gen.KernelIdeal
import proofs.«401808_j32040456028632_1_alg».proof.Proof.Gen.ReferenceIdeal
import proofs.«401808_j32040456028632_1_alg».proof.Proof.Gen.ReferenceIdeal.Run
import proofs.«401808_j32040456028632_1_alg».proof.Proof.Gen.ReferenceIdeal.Read
import proofs.«401808_j32040456028632_1_alg».proof.Proof.Gen.Pre_finite_inputs
import proofs.«401808_j32040456028632_1_alg».proof.Proof.Kernel.Whole
import proofs.«401808_j32040456028632_1_alg».proof.Proof.KernelIdeal.Whole
import proofs.«401808_j32040456028632_1_alg».proof.Proof.KernelIdeal.Bridge
import proofs.«401808_j32040456028632_1_alg».proof.Proof.RefValue
import proofs.«401808_j32040456028632_1_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Whole.frame (F := Bits) m ρ

theorem frame_kernelIdeal : Cert.frame_KernelIdeal := fun m ρ _ => Cert.KernelIdeal.Whole.frame (F := Ideal) m ρ

theorem frame_reference : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.KernelIdeal.Whole.M7 (F := Ideal) m ρ c (Proc.devRef .tc Cert.KernelIdeal.main_v15), ?_, ?_⟩
  · exact (θ_run Cert.KernelIdeal.defs _ _).mono (fun r h c =>
      ⟨h c _ (Cert.KernelIdeal.Whole.mem_uc Cert.KernelIdeal.main_v15 (by decide)),
       (h c _ (Cert.KernelIdeal.Whole.mem_uc Cert.KernelIdeal.main_arg0 (by decide))).trans (Cert.KernelIdeal.Whole.M7_main_arg0 m ρ c),
       (h c _ (Cert.KernelIdeal.Whole.mem_uc Cert.KernelIdeal.main_arg1 (by decide))).trans (Cert.KernelIdeal.Whole.M7_main_arg1 m ρ c)⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, (hagree c).1, (hagree c).2]
    have hsrc := Cert.PreDecode.srcW_in_range (F := Ideal) _ _ (hpre c)
    funext i
    obtain ⟨v, d, rfl⟩ : ∃ (v : Fin 100000) (d : Fin 64), i = ix2 v d := ⟨i 0, i 1, eq_ix2 i⟩
    rw [Cert.RefValue.result_apply _ _ hsrc v d]
    exact (Cert.KernelIdeal.Bridge.kernel_result m ρ c hsrc v d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
